-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "inv_temp" .f32 0x41649249#32 ((134217728 / 9395241 : ℝ) : EReal)
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x16 : Shape := ⟨2, ![8192, 16]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x256 .f32) (main_arg1 : IVec S8192x16 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_c_0 : IVec S_ 32 := constantI S_ 32 0#32
  let main_v4 : IVec S8192x16 32 := broadcastInDim S8192x16 ![] bcast_S_S8192x16 main_c_0
  let main_v5 : IVec S8192x16 1 := cmpi .eq main_arg1 main_v4
  let main_c_1 : IVec S_ 32 := constantI S_ 32 1#32
  let main_v6 : IVec S8192x16 32 := broadcastInDim S8192x16 ![] bcast_S_S8192x16 main_c_1
  let main_v7 : IVec S8192x16 1 := cmpi .eq main_arg1 main_v6
  let main_v8 : IVec S8192x16 1 := ori main_v5 main_v7
  let main_c_2 : IVec S_ 1 := constantI S_ 1 1#1
  let main_v9 : IVec S_ 1 := (fun x v => Host.reduce IntOp.andi x v reducesTo_S8192x16_S_d0_1 h_S_) main_v8 main_c_2
  let main_v10 : IVec S_ 1 := andi main_v3 main_v9
  main_v10
-- ==== Kernel.lean ====
abbrev S8192x256 : Shape := ⟨2, ![8192, 256]⟩
abbrev S8192x16 : Shape := ⟨2, ![8192, 16]⟩
abbrev S8192x1 : Shape := ⟨2, ![8192, 1]⟩
abbrev S1024x256 : Shape := ⟨2, ![1024, 256]⟩
abbrev S1024x16 : Shape := ⟨2, ![1024, 16]⟩
abbrev S1024x1 : Shape := ⟨2, ![1024, 1]⟩
abbrev S256x1024 : Shape := ⟨2, ![256, 1024]⟩
abbrev S1024x1024 : Shape := ⟨2, ![1024, 1024]⟩
abbrev S16x1024 : Shape := ⟨2, ![16, 1024]⟩
abbrev S1024 : Shape := ⟨1, ![1024]⟩
abbrev S8192 : Shape := ⟨1, ![8192]⟩
abbrev S_ : Shape := ⟨0, ![]⟩
abbrev S16 : Shape := ⟨1, ![16]⟩
abbrev S1x16 : Shape := ⟨2, ![1, 16]⟩

abbrev nBuf : Space → Nat
  | .hbm => 43
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x16, .i32⟩
  | .hbm, ⟨2, _⟩ => ⟨S8192x256, .bf16⟩
  | .hbm, ⟨3, _⟩ => ⟨S8192x16, .bf16⟩
  | .hbm, ⟨4, _⟩ => ⟨S8192x1, .f32⟩
  | .hbm, ⟨5, _⟩ => ⟨S8192x1, .f32⟩
  | .hbm, ⟨6, _⟩ => ⟨S8192, .f32⟩
  | .hbm, ⟨7, _⟩ => ⟨S8192, .f32⟩
  | .hbm, ⟨8, _⟩ => ⟨S_, .i32⟩
  | .hbm, ⟨9, _⟩ => ⟨S16, .i32⟩
  | .hbm, ⟨10, _⟩ => ⟨S_, .i32⟩
  | .hbm, ⟨11, _⟩ => ⟨S8192x16, .i32⟩
  | .hbm, ⟨12, _⟩ => ⟨S8192x16, .i1⟩
  | .hbm, ⟨13, _⟩ => ⟨S1x16, .i32⟩
  | .hbm, ⟨14, _⟩ => ⟨S_, .i32⟩
  | .hbm, ⟨15, _⟩ => ⟨S1x16, .i32⟩
  | .hbm, ⟨16, _⟩ => ⟨S1x16, .i1⟩
  | .hbm, ⟨17, _⟩ => ⟨S8192x16, .i1⟩
  | .hbm, ⟨18, _⟩ => ⟨S8192x16, .i1⟩
  | .hbm, ⟨19, _⟩ => ⟨S_, .i1⟩
  | .hbm, ⟨20, _⟩ => ⟨S8192, .i1⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x16, .bf16⟩
  | .local _ .vmem, ⟨4, _⟩ => ⟨S1024x16, .bf16⟩
  | .local _ .vmem, ⟨5, _⟩ => ⟨S8192x16, .bf16⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![v7.toNat, 0]
def k0_off2 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v16 : Index := Scalar.indexCast v4
  let c0_6 : Index := 0#32
  ![v16.toNat, 0]
def k0_cond4 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8192x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  transposes_S1024x16_p1_0_S16x1024 : S1024x16.Transposes [1, 0] S16x1024
  iota_S1024x1024_d0_w32 : S1024x1024.Iotas .tc 32 [0]
  iota_S1024x1024_d1_w32 : S1024x1024.Iotas .tc 32 [1]
  natLt_1_32 : 1 < 32
  reduces_S1024x1024_S1024 : S1024x1024.Reduces [1] S1024
  shapeCasts_S1024_S1024x1 : S1024.ShapeCasts S1024x1
  broadcasts_S1024x1_S1024x1024 : S1024x1.Broadcasts S1024x1024
  shapeCasts_S8192x1_S8192 : S8192x1.ShapeCasts S8192
  reducesTo_S8192x16_S16_d0 : S8192x16.ReducesTo [0] S16
  h_S_ : 0 < S_.numel
  bcast_S_S8192x16 : S_.BroadcastsInDim S8192x16 (![] : Fin 0 → Fin S8192x16.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S8192x16_0_1 : S1x16.BroadcastsInDim S8192x16 (![0, 1] : Fin 2 → Fin S8192x16.rank)
  reducesTo_S8192x16_S8192_d1 : S8192x16.ReducesTo [1] S8192
  bcast_S_S8192 : S_.BroadcastsInDim S8192 (![] : Fin 0 → Fin S8192.rank)
  reducesTo_S8192_S_d0 : S8192.ReducesTo [0] S_
  dot_S1024x256_S256x1024_S1024x1024_1_0_0_1_n_n_wf : DotDims.WF S1024x256 S256x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  k0_off2_inb : ∀ i : grid0.Coords, ∀ a, (k0_off2 i) a + S1024x16.size a ≤ S8192x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x16.size a ≤ S8192x16.size a
  hwx0_3 : ∀ i : grid0.Coords, EltTy.bits .bf16 = 32 ∨ (Rect.block (s := S8192x16) S8192x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x16 : Shape := ⟨2, ![8192, 16]⟩
abbrev S256x8192 : Shape := ⟨2, ![256, 8192]⟩
abbrev S8192x8192 : Shape := ⟨2, ![8192, 8192]⟩
abbrev S_ : Shape := ⟨0, ![]⟩
abbrev S16x8192 : Shape := ⟨2, ![16, 8192]⟩
abbrev S8192 : Shape := ⟨1, ![8192]⟩
abbrev S8192x1 : Shape := ⟨2, ![8192, 1]⟩

abbrev nBuf : Space → Nat
  | .hbm => 67
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x16, .i32⟩
  | .hbm, ⟨2, _⟩ => ⟨S256x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S8192x8192, .i1⟩
  | .hbm, ⟨14, _⟩ => ⟨S8192x16, .f32⟩
  | .hbm, ⟨15, _⟩ => ⟨S16x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .i1⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .i1⟩
  | .hbm, ⟨44, _⟩ => ⟨S8192, .i1⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_call2_v0 : Ref sig .tc := ⟨.hbm, 38, rfl⟩
abbrev main_call2_v1 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_v27 : Ref sig .tc := ⟨.hbm, 48, rfl⟩
abbrev main_cst_9 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_cst_12 : Ref sig .tc := ⟨.hbm, 60, rfl⟩
abbrev main_call4_v0 : Ref sig .tc := ⟨.hbm, 61, rfl⟩
abbrev main_call4_v1 : Ref sig .tc := ⟨.hbm, 62, rfl⟩
abbrev main_v36 : Ref sig .tc := ⟨.hbm, 63, rfl⟩
abbrev main_cst_13 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  transposes_S8192x16_S16x8192_1_0 : S8192x16.Transposes [1, 0] S16x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  dot_S8192x16_S16x8192_S8192x8192_1_0_0_1_n_n_wf : DotDims.WF S8192x16 S16x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.K.Base.lean ====
import proofs.«421964_j23673859736135_3_alg».proof.Proof.Gen.Kernel.Launch
import proofs.«421964_j23673859736135_3_alg».proof.Proof.Gen.Kernel.Skeleton
import proofs.«421964_j23673859736135_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

abbrev cond2 (i : grid0.Coords) : Prop := (Scalar.cmpi .ne (Scalar.extui (Scalar.cmpi .eq (BitVec.ofNat 32 (i 0).val) (BitVec.ofNat 32 (i 1).val))) 0#32) = 1#1
theorem hcond2 : ∀ t : Fin cfg0.N, cond2 (grid0.coords t) ↔ t.val / 8 = t.val % 8 :=
  (by decide +kernel : ∀ t : Fin grid0.N, cond2 (grid0.coords t) ↔ t.val / 8 = t.val % 8)

abbrev cond3 (i : grid0.Coords) : Prop := (Scalar.cmpi .ne (Scalar.extui (Scalar.xori (Scalar.cmpi .eq (BitVec.ofNat 32 (i 0).val) (BitVec.ofNat 32 (i 1).val)) 1#1)) 0#32) = 1#1
theorem hcond3 : ∀ t : Fin cfg0.N, cond3 (grid0.coords t) ↔ ¬(t.val / 8 = t.val % 8) :=
  (by decide +kernel : ∀ t : Fin grid0.N, cond3 (grid0.coords t) ↔ ¬(t.val / 8 = t.val % 8))

/-- Which of the two tile branches the body takes: `b` says whether the tile is on the diagonal. -/
abbrev Diag (b : Bool) (i : grid0.Coords) : Prop :=
  match b with
  | true => cond2 i ∧ ¬cond3 i
  | false => ¬cond2 i ∧ cond3 i

abbrev cond4 (i : grid0.Coords) : Prop := k0_cond4 i = 1#1
theorem hcond4 : ∀ t : Fin cfg0.N, cond4 (grid0.coords t) ↔ t.val % 8 = 7 :=
  (by decide +kernel : ∀ t : Fin grid0.N, cond4 (grid0.coords t) ↔ t.val % 8 = 7)

theorem liveIn : ∀ t : Fin cfg0.N, cfg0.idle 0 (grid0.coords t) = false ∧ cfg0.idle 1 (grid0.coords t) = false
    ∧ cfg0.idle 2 (grid0.coords t) = false ∧ cfg0.idle 3 (grid0.coords t) = false := by decide +kernel
/-- Off the last column the two output windows are idle and not written back; on it they are live. -/
theorem outIdle : ∀ t : Fin cfg0.N, ¬cond4 (grid0.coords t) → (cfg0.idle 4 (grid0.coords t) = true ∧ (cfg0.win 4).flush t = false)
    ∧ (cfg0.idle 5 (grid0.coords t) = true ∧ (cfg0.win 5).flush t = false) := by decide +kernel
theorem outLive : ∀ t : Fin cfg0.N, cond4 (grid0.coords t) → cfg0.idle 4 (grid0.coords t) = false ∧ cfg0.idle 5 (grid0.coords t) = false := by
  decide +kernel

abbrev VO4 : View sig .tc .vmem S1024x1 .f32 := (Memref.whole cc0_stg4_0 : Memref sig .tc .vmem S1024x1 .f32).view
abbrev VO5 : View sig .tc .vmem S1024x1 .f32 := (Memref.whole cc0_stg5_0 : Memref sig .tc .vmem S1024x1 .f32).view
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x16 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev VS0 : View sig .tc .vmem S1024x1 .f32 := scM0.view
abbrev VS1 : View sig .tc .vmem S1024x1 .f32 := scM1.view
abbrev VS2 : View sig .tc .vmem S1024x1 .f32 := scM2.view

theorem scRest_eq (c : Dev nD) :
    (Pipeline.scopedRest spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

end Cert.Kernel.Hand

end
-- ==== Proof.K.Runs.lean ====
import proofs.«421964_j23673859736135_3_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Col (F : FTy → Type) [FloatOps F] : Type := Vec F S1024x1 .f32
abbrev Pcs (F : FTy → Type) [FloatOps F] : Type := List (View.Piece (Elt F) S1024x1 .f32)

/-- The five lists of pieces a run stores (two output buffers, three accumulators) with what the run proves of them. -/
abbrev RunT (P : Pcs F → Pcs F → Pcs F → Pcs F → Pcs F → Prop) : Type :=
  Σ' (L4 L5 LS0 LS1 : Pcs F), { LS2 : Pcs F // P L4 L5 LS0 LS1 LS2 }

variable (c : Dev nD)

/-- A whole buffer's cells at the contents that read back as `x` are the buffer owned at `x`. -/
theorem owns_back {sh : Shape} {e : EltTy} (a : Memref sig .tc .vmem sh e) (h : a.IsWhole) (x : sh.Idx → Elt F e) :
    (a.view.loc (c : Thread nD τ) ↦[a.view.set]{fullShare} h.unread x : sProp 𝕄)
      ⊢ iprop(∃ f, ⌜a.view.read (Elt F) f = x⌝ ∗ a.view.loc (c : Thread nD τ) ↦[a.view.set]{fullShare} f) := by
  iintro H; iexists _; isplitr; · ipureintro; exact h.read_unread _
  iexact H

variable (i : grid0.Coords)
  (arg2 : Memref sig .tc .vmem S1024x256 .bf16) (harg2 : arg2.IsWhole) (arg3 : Memref sig .tc .vmem S8192x256 .bf16) (harg3 : arg3.IsWhole)
  (arg4 : Memref sig .tc .vmem S1024x16 .bf16) (harg4 : arg4.IsWhole) (arg5 : Memref sig .tc .vmem S8192x16 .bf16) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (x0 : Vec F S1024x256 .bf16) (x1 : Vec F S8192x256 .bf16) (x2 : Vec F S1024x16 .bf16) (x3 : Vec F S8192x16 .bf16)

/-- An accumulator before the body: `none` where the body resets it before reading. -/
def accIn (a : Memref sig .tc .vmem S1024x1 .f32) : Option (Col F) → sProp 𝕄
  | some x => owns (c : Thread nD τ) a fullShare x
  | none => iprop(∃ d, owns (c : Thread nD τ) a fullShare d)

def wrote (a : Memref sig .tc .vmem S1024x1 .f32) (L : Pcs F) : sProp 𝕄 :=
  iprop(∃ f, a.view.loc (c : Thread nD τ) ↦[a.view.set]{fullShare} a.view.writes (Elt F) f L)

/-- An output buffer after the body: stored into only on the last column. -/
def outLeft (a : Memref sig .tc .vmem S1024x1 .f32) (x : Col F) (L : Pcs F) : Bool → sProp 𝕄
  | true => wrote c a L
  | false => owns (c : Thread nD τ) a fullShare x

/-- The one statement every run of the body shares; the runs differ in `s0 s1 s2`, `last` and the lists. -/
def RunSpec (s0 s1 s2 : Option (Col F)) (last : Bool) (L4 L5 LS0 LS1 LS2 : Pcs F) : Prop :=
  ∀ (xi4 xi5 : Col F) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ accIn c arg8 s0 ∗ accIn c arg9 s1 ∗ accIn c arg10 s2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ outLeft c arg6 xi4 L4 last ∗ outLeft c arg7 xi5 L5 last
            ∗ wrote c arg8 LS0 ∗ wrote c arg9 LS1 ∗ wrote c arg10 LS2) -∗ K ⟨⟩))
      ⊢ wp frame (wpE (defs₀ (F := F)) Variants.none c none) E (cc0__ntxent_kernel i arg2 harg2 arg3 harg3 arg4 harg4 arg5 harg5 arg6 harg6 arg7 harg7 arg8 harg8 arg9 harg9 arg10 harg10) K

abbrev Run (s0 s1 s2 : Option (Col F)) (last : Bool) : Type :=
  RunT (RunSpec c i arg2 harg2 arg3 harg3 arg4 harg4 arg5 harg5 arg6 harg6 arg7 harg7 arg8 harg8 arg9 harg9 arg10 harg10 x0 x1 x2 x3 s0 s1 s2 last)

set_option maxHeartbeats 4000000 in
/-- On the first column: the accumulators are reset before they are read, so they may hold anything. One argument serves a tile on the diagonal and a tile off it. -/
def kernelRun_R (b : Bool) (hc1 : cond1 i) (hd : Diag b i) (hc4 : ¬cond4 i) :
    Run c i arg2 harg2 arg3 harg3 arg4 harg4 arg5 harg5 arg6 harg6 arg7 harg7 arg8 harg8 arg9 harg9 arg10 harg10 x0 x1 x2 x3 none none none false := by
  cases b <;>
   (refine ⟨[], [], ?_, ?_, ?_, fun xi4 xi5 E K => ?run⟩
    case run =>
      simp only [cc0__ntxent_kernel_eq_skeleton]; unfold cc0__ntxent_kernel_skel
      simp only [k0_part1_eq_skeleton]
      unfold accIn outLeft wrote owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
      obtain rfl := harg2.eq_unread hf0; obtain rfl := harg3.eq_unread hf1; obtain rfl := harg4.eq_unread hf2; obtain rfl := harg5.eq_unread hf3
      obtain rfl := harg6.eq_unread hf4; obtain rfl := harg7.eq_unread hf5
      sl_exec (disch := first | exact hc1 | exact hd.1 | exact hd.2 | exact hc4)
      sl_step
      iapply Hk
      isplitl [H0]; · iapply (owns_back c arg2 harg2 x0); iexact H0
      isplitl [H1]; · iapply (owns_back c arg3 harg3 x1); iexact H1
      isplitl [H2]; · iapply (owns_back c arg4 harg4 x2); iexact H2
      isplitl [H3]; · iapply (owns_back c arg5 harg5 x3); iexact H3
      isplitl [H4]; · iapply (owns_back c arg6 harg6 xi4); iexact H4
      isplitl [H5]; · iapply (owns_back c arg7 harg7 xi5); iexact H5
      isplitl [HS0]; · iexists _; iexact HS0
      isplitl [HS1]; · iexists _; iexact HS1
      iexists _; iexact HS2)

set_option maxHeartbeats 4000000 in
/-- On a middle column: the accumulators come at what the point before left, and the output buffers are not touched. -/
def kernelRun_M (b : Bool) (hc1 : ¬cond1 i) (hd : Diag b i) (hc4 : ¬cond4 i) (xs0 xs1 xs2 : Col F) :
    Run c i arg2 harg2 arg3 harg3 arg4 harg4 arg5 harg5 arg6 harg6 arg7 harg7 arg8 harg8 arg9 harg9 arg10 harg10 x0 x1 x2 x3 (some xs0) (some xs1) (some xs2) false := by
  cases b <;>
   (refine ⟨[], [], ?_, ?_, ?_, fun xi4 xi5 E K => ?run⟩
    case run =>
      simp only [cc0__ntxent_kernel_eq_skeleton]; unfold cc0__ntxent_kernel_skel
      simp only [k0_part1_eq_skeleton]
      unfold accIn outLeft wrote owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
      obtain rfl := harg2.eq_unread hf0; obtain rfl := harg3.eq_unread hf1; obtain rfl := harg4.eq_unread hf2; obtain rfl := harg5.eq_unread hf3
      obtain rfl := harg6.eq_unread hf4; obtain rfl := harg7.eq_unread hf5
      obtain rfl := harg8.eq_unread hfs0; obtain rfl := harg9.eq_unread hfs1; obtain rfl := harg10.eq_unread hfs2
      sl_exec (disch := first | exact hc1 | exact hd.1 | exact hd.2 | exact hc4)
      sl_step
      iapply Hk
      isplitl [H0]; · iapply (owns_back c arg2 harg2 x0); iexact H0
      isplitl [H1]; · iapply (owns_back c arg3 harg3 x1); iexact H1
      isplitl [H2]; · iapply (owns_back c arg4 harg4 x2); iexact H2
      isplitl [H3]; · iapply (owns_back c arg5 harg5 x3); iexact H3
      isplitl [H4]; · iapply (owns_back c arg6 harg6 xi4); iexact H4
      isplitl [H5]; · iapply (owns_back c arg7 harg7 xi5); iexact H5
      isplitl [HS0]; · iexists _; iexact HS0
      isplitl [HS1]; · iexists _; iexact HS1
      iexists _; iexact HS2)

set_option maxHeartbeats 4000000 in
/-- On the last column: as on a middle one, and the two sums are stored whole into the two output buffers. -/
def kernelRun_L (b : Bool) (hc1 : ¬cond1 i) (hd : Diag b i) (hc4 : cond4 i) (xs0 xs1 xs2 : Col F) :
    Run c i arg2 harg2 arg3 harg3 arg4 harg4 arg5 harg5 arg6 harg6 arg7 harg7 arg8 harg8 arg9 harg9 arg10 harg10 x0 x1 x2 x3 (some xs0) (some xs1) (some xs2) true := by
  cases b <;>
   (refine ⟨?_, ?_, ?_, ?_, ?_, fun xi4 xi5 E K => ?run⟩
    case run =>
      simp only [cc0__ntxent_kernel_eq_skeleton]; unfold cc0__ntxent_kernel_skel
      simp only [k0_part1_eq_skeleton]
      unfold accIn outLeft wrote owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
      obtain rfl := harg2.eq_unread hf0; obtain rfl := harg3.eq_unread hf1; obtain rfl := harg4.eq_unread hf2; obtain rfl := harg5.eq_unread hf3
      obtain rfl := harg6.eq_unread hf4; obtain rfl := harg7.eq_unread hf5
      obtain rfl := harg8.eq_unread hfs0; obtain rfl := harg9.eq_unread hfs1; obtain rfl := harg10.eq_unread hfs2
      sl_exec (disch := first | exact hc1 | exact hd.1 | exact hd.2 | exact hc4)
      sl_step
      iapply Hk
      isplitl [H0]; · iapply (owns_back c arg2 harg2 x0); iexact H0
      isplitl [H1]; · iapply (owns_back c arg3 harg3 x1); iexact H1
      isplitl [H2]; · iapply (owns_back c arg4 harg4 x2); iexact H2
      isplitl [H3]; · iapply (owns_back c arg5 harg5 x3); iexact H3
      isplitl [H4]; · iexists _; iexact H4
      isplitl [H5]; · iexists _; iexact H5
      isplitl [HS0]; · iexists _; iexact HS0
      isplitl [HS1]; · iexists _; iexact HS1
      iexists _; iexact HS2)

end Cert.Kernel.Hand

end
-- ==== Proof.K.Frame.lean ====
import proofs.«421964_j23673859736135_3_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vec5 (F : FTy → Type) [FloatOps F] : Type := Col F × Col F × Col F × Col F × Col F

theorem c1_of (t : Fin cfg0.N) (h : t.val % 8 = 0) : cond1 (grid0.coords t) := (hcond1 t).mpr h
theorem nc1_of (t : Fin cfg0.N) (h : ¬t.val % 8 = 0) : ¬cond1 (grid0.coords t) := fun hh => h ((hcond1 t).mp hh)
theorem c2_of (t : Fin cfg0.N) (h : t.val / 8 = t.val % 8) : cond2 (grid0.coords t) := (hcond2 t).mpr h
theorem nc2_of (t : Fin cfg0.N) (h : ¬t.val / 8 = t.val % 8) : ¬cond2 (grid0.coords t) := fun hh => h ((hcond2 t).mp hh)
theorem c3_of (t : Fin cfg0.N) (h : ¬t.val / 8 = t.val % 8) : cond3 (grid0.coords t) := (hcond3 t).mpr h
theorem nc3_of (t : Fin cfg0.N) (h : t.val / 8 = t.val % 8) : ¬cond3 (grid0.coords t) := fun hh => ((hcond3 t).mp hh) h
theorem c4_of (t : Fin cfg0.N) (h : t.val % 8 = 7) : cond4 (grid0.coords t) := (hcond4 t).mpr h
theorem nc4_of (t : Fin cfg0.N) (h : ¬t.val % 8 = 7) : ¬cond4 (grid0.coords t) := fun hh => h ((hcond4 t).mp hh)

/-- The contents the five buffers hold once a run's pieces are stored into them. -/
def read5 {P : Pcs F → Pcs F → Pcs F → Pcs F → Pcs F → Prop} (r : RunT P) : Vec5 F :=
  (VO4.read (Elt F) (VO4.writes (Elt F) VO4.junk r.1), VO5.read (Elt F) (VO5.writes (Elt F) VO5.junk r.2.1),
   VS0.read (Elt F) (VS0.writes (Elt F) VS0.junk r.2.2.1), VS1.read (Elt F) (VS1.writes (Elt F) VS1.junk r.2.2.2.1),
   VS2.read (Elt F) (VS2.writes (Elt F) VS2.junk r.2.2.2.2.1))

abbrev Cov (L : Pcs F) : Prop := ∀ y : S1024x1.Idx, ∃ pc ∈ L, y ∈ pc.1.set
abbrev Cov3 {P : Pcs F → Pcs F → Pcs F → Pcs F → Pcs F → Prop} (r : RunT P) : Prop := Cov r.2.2.1 ∧ Cov r.2.2.2.1 ∧ Cov r.2.2.2.2.1
abbrev Cov2 {P : Pcs F → Pcs F → Pcs F → Pcs F → Pcs F → Prop} (r : RunT P) : Prop := Cov r.1 ∧ Cov r.2.1

theorem cov_of (L : Pcs F) (h : View.Piece.tiledL L S1024x1.size = true) : Cov L := View.cover_of_tiledL L S1024x1.size h

variable (c : Dev nD) (t : Fin cfg0.N)

/-- Every point takes exactly one of the two tile branches. -/
theorem diag_at : Diag (decide (t.val / 8 = t.val % 8)) (grid0.coords t) := by
  by_cases h : t.val / 8 = t.val % 8
  · rw [decide_eq_true h]; exact show cond2 _ ∧ ¬cond3 _ from ⟨c2_of t h, nc3_of t h⟩
  · rw [decide_eq_false h]; exact show ¬cond2 _ ∧ cond3 _ from ⟨nc2_of t h, c3_of t h⟩

abbrev rAt_R (b : Bool) (h1 : t.val % 8 = 0) (hd : Diag b (grid0.coords t)) (h4 : ¬t.val % 8 = 7) :=
  kernelRun_R (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (iblk m c 3 t) b (c1_of t h1) hd (nc4_of t h4)
theorem cov_R (b : Bool) (h1 : t.val % 8 = 0) (hd : Diag b (grid0.coords t)) (h4 : ¬t.val % 8 = 7) : Cov3 (rAt_R m c t b h1 hd h4) := by
  cases b <;> exact ⟨cov_of _ (by sl_kernel_rfl), cov_of _ (by sl_kernel_rfl), cov_of _ (by sl_kernel_rfl)⟩

abbrev rAt_M (b : Bool) (h1 : ¬t.val % 8 = 0) (hd : Diag b (grid0.coords t)) (h4 : ¬t.val % 8 = 7) (xs0 xs1 xs2 : Col F) :=
  kernelRun_M (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (iblk m c 3 t) b (nc1_of t h1) hd (nc4_of t h4) xs0 xs1 xs2
theorem cov_M (b : Bool) (h1 : ¬t.val % 8 = 0) (hd : Diag b (grid0.coords t)) (h4 : ¬t.val % 8 = 7) (xs0 xs1 xs2 : Col F) :
    Cov3 (rAt_M m c t b h1 hd h4 xs0 xs1 xs2) := by
  cases b <;> exact ⟨cov_of _ (by sl_kernel_rfl), cov_of _ (by sl_kernel_rfl), cov_of _ (by sl_kernel_rfl)⟩

abbrev rAt_L (b : Bool) (h1 : ¬t.val % 8 = 0) (hd : Diag b (grid0.coords t)) (h4 : t.val % 8 = 7) (xs0 xs1 xs2 : Col F) :=
  kernelRun_L (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (iblk m c 3 t) b (nc1_of t h1) hd (c4_of t h4) xs0 xs1 xs2
theorem cov_L (b : Bool) (h1 : ¬t.val % 8 = 0) (hd : Diag b (grid0.coords t)) (h4 : t.val % 8 = 7) (xs0 xs1 xs2 : Col F) :
    Cov3 (rAt_L m c t b h1 hd h4 xs0 xs1 xs2) ∧ Cov2 (rAt_L m c t b h1 hd h4 xs0 xs1 xs2) := by
  cases b <;> exact ⟨⟨cov_of _ (by sl_kernel_rfl), cov_of _ (by sl_kernel_rfl), cov_of _ (by sl_kernel_rfl)⟩, cov_of _ (by sl_kernel_rfl), cov_of _ (by sl_kernel_rfl)⟩

/-- What a point leaves in the five buffers, from what the point before left. -/
def nextAt (p : Vec5 F) : Vec5 F :=
  if h1 : t.val % 8 = 0 then read5 (rAt_R m c t _ h1 (diag_at t) (by omega))
  else if h4 : t.val % 8 = 7 then read5 (rAt_L m c t _ h1 (diag_at t) h4 p.2.2.1 p.2.2.2.1 p.2.2.2.2)
  else read5 (rAt_M m c t _ h1 (diag_at t) h4 p.2.2.1 p.2.2.2.1 p.2.2.2.2)

theorem nextAt_first (h1 : t.val % 8 = 0) (p q : Vec5 F) : nextAt m c t p = nextAt m c t q := by
  unfold nextAt; rw [dif_pos h1, dif_pos h1]

def outsAt : (n : ℕ) → n < cfg0.N → Vec5 F
  | 0, hn => nextAt m c ⟨0, hn⟩ (VO4.junk, VO4.junk, VO4.junk, VO4.junk, VO4.junk)
  | n + 1, hn => nextAt m c ⟨n + 1, hn⟩ (outsAt n (Nat.lt_of_succ_lt hn))

abbrev prevAt : Vec5 F := outsAt m c (t.val - 1) (Nat.lt_of_le_of_lt (Nat.sub_le _ _) t.isLt)

theorem outsAt_eq : outsAt m c t.val t.isLt = nextAt m c t (prevAt m c t) := by
  obtain ⟨n, hn⟩ := t
  cases n with
  | zero => exact nextAt_first m c _ (Nat.zero_mod 8) _ _
  | succ n => rfl

theorem outsAt_R (h1 : t.val % 8 = 0) : outsAt m c t.val t.isLt = read5 (rAt_R m c t _ h1 (diag_at t) (by omega)) := by
  rw [outsAt_eq]; unfold nextAt; rw [dif_pos h1]
theorem outsAt_M (h1 : ¬t.val % 8 = 0) (h4 : ¬t.val % 8 = 7) : outsAt m c t.val t.isLt = read5 (rAt_M m c t _ h1 (diag_at t) h4 (prevAt m c t).2.2.1 (prevAt m c t).2.2.2.1 (prevAt m c t).2.2.2.2) := by
  rw [outsAt_eq]; unfold nextAt; rw [dif_neg h1, dif_neg h4]
theorem outsAt_L (h1 : ¬t.val % 8 = 0) (h4 : t.val % 8 = 7) : outsAt m c t.val t.isLt = read5 (rAt_L m c t _ h1 (diag_at t) h4 (prevAt m c t).2.2.1 (prevAt m c t).2.2.2.1 (prevAt m c t).2.2.2.2) := by
  rw [outsAt_eq]; unfold nextAt; rw [dif_neg h1, dif_pos h4]

def PhiS : (n : ℕ) → n ≤ cfg0.N → sProp 𝕄
  | 0, _ => Pipeline.scopedRest spec0 c
  | n + 1, hn => iprop(owns (c : Thread nD τ) scM0 fullShare (outsAt m c n hn).2.2.1 ∗ owns (c : Thread nD τ) scM1 fullShare (outsAt m c n hn).2.2.2.1 ∗ owns (c : Thread nD τ) scM2 fullShare (outsAt m c n hn).2.2.2.2)

theorem PhiS_zero (n : ℕ) (h : n ≤ cfg0.N) (hz : n = 0) : PhiS m c n h = Pipeline.scopedRest spec0 c := by
  subst hz; rfl

theorem PhiS_succ (n : ℕ) (hn : n < cfg0.N) :
    PhiS m c (n + 1) hn = iprop(owns (c : Thread nD τ) scM0 fullShare (outsAt m c n hn).2.2.1 ∗ owns (c : Thread nD τ) scM1 fullShare (outsAt m c n hn).2.2.2.1 ∗ owns (c : Thread nD τ) scM2 fullShare (outsAt m c n hn).2.2.2.2) := rfl

theorem PhiS_pos (n : ℕ) (h : n ≤ cfg0.N) (hz : n ≠ 0) :
    PhiS m c n h = iprop(owns (c : Thread nD τ) scM0 fullShare (outsAt m c (n - 1) (by omega)).2.2.1 ∗ owns (c : Thread nD τ) scM1 fullShare (outsAt m c (n - 1) (by omega)).2.2.2.1 ∗ owns (c : Thread nD τ) scM2 fullShare (outsAt m c (n - 1) (by omega)).2.2.2.2) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (w : Fin cfg0.W) : (dats m 0 c).A w = V m c (Pipeline.arrRef spec0 w) := by
  dsimp only [dats]

theorem PhiS_castSucc :
    (dats m 0 c).Φ t.castSucc = PhiS m c t.val (Nat.le_of_lt t.isLt) := by
  dsimp only [dats]; simp only [Fin.coe_castSucc]

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = (outsAt m c t.val t.isLt).1 := by dsimp only [dats]
theorem after5 : (dats m 0 c).after 5 t = (outsAt m c t.val t.isLt).2.1 := by dsimp only [dats]

theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

def bodyPre : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in0 : (dats m 0 c).leavesExact 0 t = owns (c : Thread nD τ) (ms0 t) fullShare (iblk m c 0 t) := by
  unfold Dat.leavesExact; rw [(liveIn t).1, after0]
theorem leaves_in1 : (dats m 0 c).leavesExact 1 t = owns (c : Thread nD τ) (ms1 t) fullShare (iblk m c 1 t) := by
  unfold Dat.leavesExact; rw [(liveIn t).2.1, after1]
theorem leaves_in2 : (dats m 0 c).leavesExact 2 t = owns (c : Thread nD τ) (ms2 t) fullShare (iblk m c 2 t) := by
  unfold Dat.leavesExact; rw [(liveIn t).2.2.1, after2]
theorem leaves_in3 : (dats m 0 c).leavesExact 3 t = owns (c : Thread nD τ) (ms3 t) fullShare (iblk m c 3 t) := by
  unfold Dat.leavesExact; rw [(liveIn t).2.2.2, after3]
theorem leaves_out4 (h : t.val % 8 = 7) : (dats m 0 c).leavesExact 4 t = owns (c : Thread nD τ) (ms4 t) fullShare (outsAt m c t.val t.isLt).1 := by
  unfold Dat.leavesExact; rw [(outLive t (c4_of t h)).1, after4]
theorem leaves_out5 (h : t.val % 8 = 7) : (dats m 0 c).leavesExact 5 t = owns (c : Thread nD τ) (ms5 t) fullShare (outsAt m c t.val t.isLt).2.1 := by
  unfold Dat.leavesExact; rw [(outLive t (c4_of t h)).2, after5]
theorem leaves_idle4 (h : ¬t.val % 8 = 7) : (dats m 0 c).leavesExact 4 t = iprop(∃ d, owns (c : Thread nD τ) (ms4 t) fullShare ((dats m 0 c).before 4 t d)) :=
  Dat.leavesExact_idle (dats m 0 c) 4 t (outIdle t (nc4_of t h)).1.1 (outIdle t (nc4_of t h)).1.2
theorem leaves_idle5 (h : ¬t.val % 8 = 7) : (dats m 0 c).leavesExact 5 t = iprop(∃ d, owns (c : Thread nD τ) (ms5 t) fullShare ((dats m 0 c).before 5 t d)) :=
  Dat.leavesExact_idle (dats m 0 c) 5 t (outIdle t (nc4_of t h)).2.1 (outIdle t (nc4_of t h)).2.2

/-- A buffer holding pieces that cover it is owned at those pieces read back, through any view of the shape. -/
theorem owns_wrote {κ' : Kind} {sp' : Space} (v' : View sig κ' sp' S1024x1 .f32) (a : Memref sig .tc .vmem S1024x1 .f32) (L : Pcs F) (h : Cov L) :
    wrote c a L ⊢ owns (c : Thread nD τ) a fullShare (v'.read (Elt F) (v'.writes (Elt F) v'.junk L)) := by
  unfold wrote owns; iintro ⟨%f, H⟩; iexists _; isplitr
  swap; · iexact H
  ipureintro; exact View.read_writes_of_cover _ _ _ _ _ h

/-- The invariant before a point gives the accumulators as each kind of point wants them: at anything where they are about to be reset, else at what the point before left. -/
theorem PhiS_reset : PhiS m c t.val (Nat.le_of_lt t.isLt) ⊢ iprop(accIn c scM0 none ∗ accIn c scM1 none ∗ accIn c scM2 none) := by
  unfold accIn
  by_cases h : t.val = 0
  · rw [PhiS_zero m c _ _ h, scRest_eq]
  · rw [PhiS_pos m c _ _ h]
    iintro ⟨HS0, HS1, HS2⟩
    isplitl [HS0]; · iexists _; iexact HS0
    isplitl [HS1]; · iexists _; iexact HS1
    iexists _; iexact HS2
theorem PhiS_named (h : t.val ≠ 0) : PhiS m c t.val (Nat.le_of_lt t.isLt)
    ⊢ iprop(accIn c scM0 (some (prevAt m c t).2.2.1) ∗ accIn c scM1 (some (prevAt m c t).2.2.2.1) ∗ accIn c scM2 (some (prevAt m c t).2.2.2.2)) := by
  unfold accIn; rw [PhiS_pos m c _ _ h]

set_option maxHeartbeats 4000000 in
/-- The body's obligation at a point, from any run of the body there. -/
theorem sound_of (s0 s1 s2 : Option (Col F)) (last : Bool) (r : Run c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (iblk m c 3 t) s0 s1 s2 last)
    (hr : outsAt m c t.val t.isLt = read5 r) (h3 : Cov3 r) (h2 : last = true → Cov2 r)
    (h4 : match last with | true => t.val % 8 = 7 | false => ¬t.val % 8 = 7)
    (hΦ : PhiS m c t.val (Nat.le_of_lt t.isLt) ⊢ iprop(accIn c scM0 s0 ∗ accIn c scM1 s1 ∗ accIn c scM2 s2)) :
    bodyPre m c t ⊢ wp frame (wpE (defs₀ (F := F)) Variants.none c none) Set.univ (bodyAt0 t) (fun _ => bodyPost m c t) := by
  have hrun := r.2.2.2.2.2
  unfold RunSpec at hrun
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, PhiS_castSucc m c t]
  iintro ⟨HS, Ho, ⟨%d0, H0⟩, ⟨%d1, H1⟩, ⟨%d2, H2⟩, ⟨%d3, H3⟩, ⟨%d4, H4⟩, ⟨%d5, H5⟩⟩
  ihave HS' := hΦ $$ HS
  icases HS' with ⟨HS0, HS1, HS2⟩
  iapply (hrun _ _ Set.univ _)
  iframe H0 H1 H2 H3 H4 H5 HS0 HS1 HS2
  iintro ⟨H0, H1, H2, H3, H4, H5, HS0, HS1, HS2⟩
  cases last <;>
   (first | rw [leaves_idle4 m c t h4, leaves_idle5 m c t h4, hr] | rw [leaves_out4 m c t h4, leaves_out5 m c t h4, hr]
    unfold read5 outLeft; dsimp only
    isplitl [HS0 HS1 HS2]
    · isplitl [HS0]; · iapply (owns_wrote c VS0 scM0 _ h3.1); iexact HS0
      isplitl [HS1]; · iapply (owns_wrote c VS1 scM1 _ h3.2.1); iexact HS1
      iapply (owns_wrote c VS2 scM2 _ h3.2.2); iexact HS2
    iframe Ho H0 H1 H2 H3
    first
    | (isplitl [H4]; · iexists _; iexact H4
       iexists _; iexact H5)
    | (isplitl [H4]; · iapply (owns_wrote c VO4 (ms4 t) _ (h2 rfl).1); iexact H4
       iapply (owns_wrote c VO5 (ms5 t) _ (h2 rfl).2); iexact H5))

theorem sound_body : bodyPre m c t ⊢ wp frame (wpE (defs₀ (F := F)) Variants.none c none) Set.univ (bodyAt0 t) (fun _ => bodyPost m c t) := by
  by_cases h1 : t.val % 8 = 0
  · have h4 : ¬t.val % 8 = 7 := by omega
    exact sound_of m c t none none none false (rAt_R m c t _ h1 (diag_at t) h4) (outsAt_R m c t h1) (cov_R m c t _ h1 _ h4) (fun h => nomatch h) h4 (PhiS_reset m c t)
  · by_cases h4 : t.val % 8 = 7
    · exact sound_of m c t (some (prevAt m c t).2.2.1) (some (prevAt m c t).2.2.2.1) (some (prevAt m c t).2.2.2.2) true (rAt_L m c t _ h1 (diag_at t) h4 (prevAt m c t).2.2.1 (prevAt m c t).2.2.2.1 (prevAt m c t).2.2.2.2) (outsAt_L m c t h1 h4) (cov_L m c t _ h1 _ h4 _ _ _).1 (fun _ => (cov_L m c t _ h1 _ h4 _ _ _).2) h4 (PhiS_named m c t (by omega))
    · exact sound_of m c t (some (prevAt m c t).2.2.1) (some (prevAt m c t).2.2.2.1) (some (prevAt m c t).2.2.2.2) false (rAt_M m c t _ h1 (diag_at t) h4 (prevAt m c t).2.2.1 (prevAt m c t).2.2.2.1 (prevAt m c t).2.2.2.2) (outsAt_M m c t h1 h4) (cov_M m c t _ h1 _ h4 _ _ _) (fun h => nomatch h) h4 (PhiS_named m c t (by omega))

theorem body_obligation : BodyObligation (dats (F := F) m 0 c) (defs₀ (F := F)) Variants.none () Set.univ := fun t => by
  rw [bigSep_W0, bigSep_W0]
  exact sound_body m c t

theorem hin : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

theorem hout : (dats m 0 c).Φ (Fin.last cfg0.N) ⊢ Pipeline.scopedRest spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scRest_eq]
  iintro ⟨HS0, HS1, HS2⟩
  isplitl [HS0]; · iexists _; iexact HS0
  isplitl [HS1]; · iexists _; iexact HS1
  iexists _; iexact HS2

end Cert.Kernel.Hand

end
-- ==== Proof.K.Launch.lean ====
import proofs.«421964_j23673859736135_3_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arrImage : Finset.univ.image (Pipeline.arrRef spec0) = [main_v0, main_v1, main_v2_0, main_v2_1].toFinset := by decide

def Wout (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

theorem bigSep_arrImage {M : Type} [URA M] (Φ : Ref sig .tc → sProp M) :
    bigSep (Finset.univ.image (Pipeline.arrRef spec0)) Φ = iprop(Φ main_v0 ∗ Φ main_v1 ∗ Φ main_v2_0 ∗ Φ main_v2_1) :=
  bigSep_eq_bigSepL_of_eq [main_v0, main_v1, main_v2_0, main_v2_1] arrImage (by decide) Φ

theorem hsplit (c : Dev nD) :
    (Pipeline.arrBufs spec0 c (V m c) : sProp 𝕄) ⊢ (dats m 0 c).arrays ((dats m 0 c).arrAt · 0) := by
  unfold Pipeline.arrBufs Dat.arrays
  rw [bigSep_arrImage, bigSep_W0]
  rw [(arr_whole0 0).set_eq_univ, (arr_whole0 2).set_eq_univ, (arr_whole0 4).set_eq_univ, (arr_whole0 5).set_eq_univ]
  have hs0 : (dats m 0 c).share 0 = fullShare.left := rfl
  have hs1 : (dats m 0 c).share 1 = fullShare.right := rfl
  have hs2 : (dats m 0 c).share 2 = fullShare.left := rfl
  have hs3 : (dats m 0 c).share 3 = fullShare.right := rfl
  have hs4 : (dats m 0 c).share 4 = fullShare := rfl
  have hs5 : (dats m 0 c).share 5 = fullShare := rfl
  rw [hs0, hs1, hs2, hs3, hs4, hs5]
  iintro ⟨H0, H1, H2, H3⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H2]; · iexact H2
  iexact H3

abbrev OffShared (op : HloOp τ sig (Elt F)) : Prop :=
  (Proc.devRef .tc main_v0 ∉ op.bufs ∧ Proc.devRef .tc main_v1 ∉ op.bufs)
    ∧ (Proc.devRef .tc main_v2_0 ∉ op.writes ∧ Proc.devRef .tc main_v2_1 ∉ op.writes)

theorem forall_lines {p : HloOp τ sig (Elt F) → Prop} (h : (tailOps (F := F)).Forall (List.Forall p)) :
    ∀ ops ∈ (tailOps (F := F)), ∀ op ∈ ops, p op :=
  fun ops hops op hop => List.forall_iff_forall_mem.mp (List.forall_iff_forall_mem.mp h ops hops) op hop

theorem tail_off : ∀ ops ∈ (tailOps (F := F)), ∀ op ∈ ops, OffShared op := forall_lines (by
  simp only [List.Forall, OffShared, StableHlo.nullary_bufs, StableHlo.unary_bufs, StableHlo.binary_bufs, StableHlo.ternary_bufs,
    StableHlo.reshape_bufs, StableHlo.nullary_writes, StableHlo.unary_writes, StableHlo.binary_writes, StableHlo.ternary_writes,
    StableHlo.reshape_writes, Finset.mem_insert, Finset.mem_singleton, not_or]
  repeat' constructor
  all_goals decide)

abbrev restS : Finset (Ref sig .tc) :=
  (Finset.univ.filter fun b : Ref sig .tc => ¬ b.isScoped) \ Finset.univ.image (Pipeline.arrRef spec0)

def tailS : Finset (DevRef τ sig) :=
  (({main_v2_0, main_v2_1} : Finset (Ref sig .tc)) ∪ restS).map ⟨Proc.devRef (sig := sig) .tc, Proc.devRef_injective _⟩

theorem held_tailS (c : Dev nD) (W : Valuation τ sig (Elt F)) :
    (StableHlo.held (c.tc : Thread nD τ) tailS W : sProp 𝕄)
      = iprop((((c.tc : Thread nD τ).loc main_v2_0 ↦{fullShare} W (Proc.devRef .tc main_v2_0))
            ∗ ((c.tc : Thread nD τ).loc main_v2_1 ↦{fullShare} W (Proc.devRef .tc main_v2_1)))
          ∗ Pipeline.unscopedRest spec0 c (fun b => W (Proc.devRef .tc b))) := by
  have hdisj : Disjoint ({main_v2_0, main_v2_1} : Finset (Ref sig .tc)) restS := by decide
  unfold StableHlo.held tailS Pipeline.unscopedRest
  rw [bigSep_map, bigSep_union hdisj, bigSep_insert (by decide), bigSep_singleton]
  rfl

theorem sub_tailS (op : HloOp τ sig (Elt F)) (h₁ : op.bufs ⊆ StableHlo.tcRefs τ sig)
    (h₀ : Proc.devRef .tc main_v0 ∉ op.bufs) (h₀' : Proc.devRef .tc main_v1 ∉ op.bufs) : op.bufs ⊆ tailS := by
  intro b hb
  have hu : b ∈ Pipeline.ucRefs τ sig := Pipeline.sub_ucRefs op h₁ hb
  simp only [tailS, restS, Pipeline.ucRefs, StableHlo.tcRefs, Finset.mem_map, Finset.mem_filter, Finset.mem_union,
    Finset.mem_sdiff, Finset.mem_univ, true_and, Function.Embedding.coeFn_mk] at hu ⊢
  obtain ⟨⟨r, rfl⟩, hr⟩ := hu
  refine ⟨r, ?_, rfl⟩
  by_cases h : r ∈ Finset.univ.image (Pipeline.arrRef spec0)
  · rw [arrImage] at h
    simp only [List.toFinset_cons, List.toFinset_nil, Finset.mem_insert, Finset.mem_singleton, insert_empty_eq] at h
    rcases h with rfl | rfl | rfl | rfl
    · exact absurd hb h₀
    · exact absurd hb h₀'
    · exact Or.inl (Finset.mem_insert_self _ _)
    · exact Or.inl (Finset.mem_insert_of_mem (Finset.mem_singleton_self _))
  · exact Or.inr ⟨hr, h⟩

theorem tail_sub : ∀ ops ∈ (tailOps (F := F)), ∀ op ∈ ops, op.bufs ⊆ tailS := fun ops hops op hop =>
  sub_tailS op (forall_lines (show _ ∧ _ ∧ _ ∧ _ ∧ _ from ⟨hostOps1_sub, hostOps1_1_sub, hostOps1_2_sub, hostOps1_3_sub, hostOps1_4_sub⟩) ops hops op hop)
    (tail_off ops hops op hop).1.1 (tail_off ops hops op hop).1.2

theorem tail_fresh : ∀ ops ∈ (tailOps (F := F)), ∀ op ∈ ops, op.fresh = ∅ := forall_lines (by
  simp only [List.Forall]; repeat' constructor)

theorem Wout_v2_0 (c : Dev nD) : Wout m c (Proc.devRef .tc main_v2_0) = (dats m 0 c).arrAt 4 cfg0.N := by
  unfold Wout
  rw [Function.update_of_ne (StableHlo.devRef_ne_of_ne (by decide)), Function.update_self]
theorem Wout_v2_1 (c : Dev nD) : Wout m c (Proc.devRef .tc main_v2_1) = (dats m 0 c).arrAt 5 cfg0.N := by
  unfold Wout
  rw [Function.update_self]
theorem Wout_rest (c : Dev nD) (b : Ref sig .tc) (hb : b ∈ restS) : Wout m c (Proc.devRef .tc b) = V m c b := by
  have h0 : b ≠ main_v2_0 := fun e => (Finset.mem_sdiff.mp hb).2 (e ▸ (by decide : main_v2_0 ∈ Finset.univ.image (Pipeline.arrRef spec0)))
  have h1 : b ≠ main_v2_1 := fun e => (Finset.mem_sdiff.mp hb).2 (e ▸ (by decide : main_v2_1 ∈ Finset.univ.image (Pipeline.arrRef spec0)))
  unfold Wout
  rw [Function.update_of_ne (StableHlo.devRef_ne_of_ne h1), Function.update_of_ne (StableHlo.devRef_ne_of_ne h0)]

theorem after_v2_0 (c : Dev nD) :
    StableHlo.after (tailOps (F := F)).flatten (Wout m c) (Proc.devRef .tc main_v2_0) = (dats m 0 c).arrAt 4 cfg0.N := by
  rw [StableHlo.after_of_forall_not_mem _ _ fun op hop => ?_, Wout_v2_0]
  obtain ⟨ops, hops, hop'⟩ := List.mem_flatten.mp hop
  exact (tail_off ops hops op hop').2.1
theorem after_v2_1 (c : Dev nD) :
    StableHlo.after (tailOps (F := F)).flatten (Wout m c) (Proc.devRef .tc main_v2_1) = (dats m 0 c).arrAt 5 cfg0.N := by
  rw [StableHlo.after_of_forall_not_mem _ _ fun op hop => ?_, Wout_v2_1]
  obtain ⟨ops, hops, hop'⟩ := List.mem_flatten.mp hop
  exact (tail_off ops hops op hop').2.2

theorem rest_exit (c : Dev nD) :
    (Pipeline.unscopedRest spec0 c (fun b => Wout m c (Proc.devRef .tc b)) : sProp 𝕄) = Pipeline.unscopedRest spec0 c (V m c) := by
  unfold Pipeline.unscopedRest
  exact bigSep_congr fun b hb => by dsimp only; rw [Wout_rest m c b hb]

theorem held_exit (c : Dev nD) :
    (StableHlo.held (c.tc : Thread nD τ) tailS (Wout m c) : sProp 𝕄)
      = iprop((((c.tc : Thread nD τ).loc main_v2_0 ↦{fullShare} (dats m 0 c).arrAt 4 cfg0.N)
            ∗ ((c.tc : Thread nD τ).loc main_v2_1 ↦{fullShare} (dats m 0 c).arrAt 5 cfg0.N))
          ∗ Pipeline.unscopedRest spec0 c (V m c)) := by
  rw [held_tailS, Wout_v2_0, Wout_v2_1, rest_exit]

theorem held_after (c : Dev nD) :
    (StableHlo.held (c.tc : Thread nD τ) tailS (StableHlo.after (tailOps (F := F)).flatten (Wout m c)) : sProp 𝕄)
      = iprop((((c.tc : Thread nD τ).loc main_v2_0 ↦{fullShare} (dats m 0 c).arrAt 4 cfg0.N)
            ∗ ((c.tc : Thread nD τ).loc main_v2_1 ↦{fullShare} (dats m 0 c).arrAt 5 cfg0.N))
          ∗ Pipeline.unscopedRest spec0 c (fun b => StableHlo.after (tailOps (F := F)).flatten (Wout m c) (Proc.devRef .tc b))) := by
  rw [held_tailS, after_v2_0, after_v2_1]

set_option backward.isDefEq.respectTransparency.types false in

theorem htail (c : Dev nD) (Q' : PUnit → sProp 𝕄) :
    iprop((iprop((dats m 0 c).arrays ((dats m 0 c).arrAt · cfg0.N)
              ∗ Pipeline.unscopedRest spec0 c (fun b => StableHlo.after (tailOps (F := F)).flatten (Wout m c) (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' := by
  unfold Dat.arrays
  rw [bigSep_W0]
  rw [(arr_whole0 0).set_eq_univ, (arr_whole0 2).set_eq_univ, (arr_whole0 4).set_eq_univ, (arr_whole0 5).set_eq_univ]
  rw [show (dats m 0 c).share 4 = fullShare from rfl, show (dats m 0 c).share 5 = fullShare from rfl]
  rw [← List.append_nil ((tailOps (F := F)).map StableHlo.seq)]
  iintro ⟨Hk, Hb, ⟨A0, A1, A2, A3, A4, A5⟩, HU⟩
  ihave HS := (Entails.of_eq (held_exit m c).symm) $$ [A4 A5 HU]
  · iframe
  iapply (Pipeline.wp_seqs_then (fun q => (cfgs q).toPCfg (Val := Elt F)) defs₀ Variants.none c tailS [] tailOps tail_sub tail_fresh (Wout m c)) $$ [Hb HS]
  · iframe
  iintro Hb
  rw [Pipeline.chain_nil, wp_pure, held_after]
  imodintro
  iapply Hk
  icases Hb with ⟨-, ⟨A4, A5⟩, HU⟩
  iframe

set_option maxHeartbeats 8000000 in
set_option backward.isDefEq.respectTransparency.types false in

theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (tailOps (F := F)).flatten (Wout m c) (Proc.devRef .tc b)) :=
  Pipeline.θ_run_region_noSem_pf_tail (fun q => (cfgs q).toPCfg (Val := Elt F)) (fun q => (cfgs q).toPCfg_adm) (dats m) () cellOf_inj 0
    winFacts₀0 (Pipeline.PreFacts.none _) emb₁ defs₀ Variants.none m ρ main (fun _ => Pipeline.chain ((tailOps (F := F)).map StableHlo.seq))
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m) (fun _ k => k.elim0)
    (fun _ => iprop(emp)) (fun _ => iprop(emp))
    (fun c => Pipeline.unscopedRest spec0 c (V m c))
    (fun c => Pipeline.unscopedRest spec0 c (fun b => StableHlo.after (tailOps (F := F)).flatten (Wout m c) (Proc.devRef .tc b)))
    (fun c => by rw [Pipeline.unscopedRestP_none]; iintro H; isplitr; · iempintro
                 iexact H)
    (fun c => (show _ ⊢ Pipeline.scopedRest spec0 c from by iintro ⟨-, -, HR⟩; iexact HR).trans (hin m c))
    (fun c => (hout m c).trans (by iintro H; isplitr; · iempintro
                                   iexact H))
    (htail m)
    (fun c s => ∀ b ∈ Pipeline.restRefs sig spec0, s.mem ((c.tc : Thread nD τ).loc b)
          = StableHlo.after (tailOps (F := F)).flatten (Wout m c) (Proc.devRef .tc b))
    (fun c s' => by
      iintro ⟨-, HU, HSI⟩
      unfold Pipeline.unscopedRest
      imodintro
      iapply (pointsTo_read_all (Pipeline.restRefs sig spec0) (fun b => (c.tc : Thread nD τ).loc b) (fun b => StableHlo.after (tailOps (F := F)).flatten (Wout m c) (Proc.devRef .tc b)) s')
      isplitl [HU] <;> iassumption)
    (fun s h c => ⟨(h c).1, (h c).2.2⟩)

end Cert.Kernel.Hand

end
-- ==== Proof.K.Kept.lean ====
import proofs.«421964_j23673859736135_3_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_rest_arg0 : main_arg0 ∈ Pipeline.restRefs sig spec0 := by decide
theorem mem_rest_arg1 : main_arg1 ∈ Pipeline.restRefs sig spec0 := by decide
theorem mem_rest_v25 : main_v25 ∈ Pipeline.restRefs sig spec0 := by decide

theorem V0_arg0 (c : Dev nD) : V0 m c (Proc.devRef .tc main_arg0) = m ((c.tc : Thread nD τ).loc main_arg0) := by
  show StableHlo.after (List.flatten [hostOps0]) (fun b => m (c, b)) (Proc.devRef .tc main_arg0) = _
  simp only [List.flatten_cons, List.flatten_nil, List.append_nil, hostOps0]
  after_results
theorem V0_arg1 (c : Dev nD) : V0 m c (Proc.devRef .tc main_arg1) = m ((c.tc : Thread nD τ).loc main_arg1) := by
  show StableHlo.after (List.flatten [hostOps0]) (fun b => m (c, b)) (Proc.devRef .tc main_arg1) = _
  simp only [List.flatten_cons, List.flatten_nil, List.append_nil, hostOps0]
  after_results

theorem Wout_arg0 (c : Dev nD) : Wout m c (Proc.devRef .tc main_arg0) = m ((c.tc : Thread nD τ).loc main_arg0) := by
  unfold Wout
  rw [Function.update_of_ne (StableHlo.devRef_ne_of_ne (by decide)), Function.update_of_ne (StableHlo.devRef_ne_of_ne (by decide)), V0_arg0]
theorem Wout_arg1 (c : Dev nD) : Wout m c (Proc.devRef .tc main_arg1) = m ((c.tc : Thread nD τ).loc main_arg1) := by
  unfold Wout
  rw [Function.update_of_ne (StableHlo.devRef_ne_of_ne (by decide)), Function.update_of_ne (StableHlo.devRef_ne_of_ne (by decide)), V0_arg1]

theorem tail_arg0 (W : Valuation τ sig (Elt F)) :
    StableHlo.after (tailOps (F := F)).flatten W (Proc.devRef .tc main_arg0) = W (Proc.devRef .tc main_arg0) := by
  simp only [tailOps, List.flatten_cons, List.flatten_nil, List.append_nil, List.cons_append, List.nil_append, hostOps1, hostOps1_1, hostOps1_2, hostOps1_3, hostOps1_4]
  after_results_simp <;> rfl
theorem tail_arg1 (W : Valuation τ sig (Elt F)) :
    StableHlo.after (tailOps (F := F)).flatten W (Proc.devRef .tc main_arg1) = W (Proc.devRef .tc main_arg1) := by
  simp only [tailOps, List.flatten_cons, List.flatten_nil, List.append_nil, List.cons_append, List.nil_append, hostOps1, hostOps1_1, hostOps1_2, hostOps1_3, hostOps1_4]
  after_results_simp <;> rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 mem_rest_arg0).trans ((tail_arg0 _).trans (Wout_arg0 m c)),
      ((h c).2 main_arg1 mem_rest_arg1).trans ((tail_arg1 _).trans (Wout_arg1 m c))⟩) (run_main m ρ)

end Cert.Kernel.Hand

end
-- ==== Proof.KI.Base.lean ====
import proofs.«421964_j23673859736135_3_alg».proof.Proof.Gen.KernelIdeal.Launch
import proofs.«421964_j23673859736135_3_alg».proof.Proof.Gen.KernelIdeal.Skeleton
import proofs.«421964_j23673859736135_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

abbrev cond2 (i : grid0.Coords) : Prop := (Scalar.cmpi .ne (Scalar.extui (Scalar.cmpi .eq (BitVec.ofNat 32 (i 0).val) (BitVec.ofNat 32 (i 1).val))) 0#32) = 1#1
theorem hcond2 : ∀ t : Fin cfg0.N, cond2 (grid0.coords t) ↔ t.val / 8 = t.val % 8 :=
  (by decide +kernel : ∀ t : Fin grid0.N, cond2 (grid0.coords t) ↔ t.val / 8 = t.val % 8)

abbrev cond3 (i : grid0.Coords) : Prop := (Scalar.cmpi .ne (Scalar.extui (Scalar.xori (Scalar.cmpi .eq (BitVec.ofNat 32 (i 0).val) (BitVec.ofNat 32 (i 1).val)) 1#1)) 0#32) = 1#1
theorem hcond3 : ∀ t : Fin cfg0.N, cond3 (grid0.coords t) ↔ ¬(t.val / 8 = t.val % 8) :=
  (by decide +kernel : ∀ t : Fin grid0.N, cond3 (grid0.coords t) ↔ ¬(t.val / 8 = t.val % 8))

/-- Which of the two tile branches the body takes: `b` says whether the tile is on the diagonal. -/
abbrev Diag (b : Bool) (i : grid0.Coords) : Prop :=
  match b with
  | true => cond2 i ∧ ¬cond3 i
  | false => ¬cond2 i ∧ cond3 i

abbrev cond4 (i : grid0.Coords) : Prop := k0_cond4 i = 1#1
theorem hcond4 : ∀ t : Fin cfg0.N, cond4 (grid0.coords t) ↔ t.val % 8 = 7 :=
  (by decide +kernel : ∀ t : Fin grid0.N, cond4 (grid0.coords t) ↔ t.val % 8 = 7)

theorem liveIn : ∀ t : Fin cfg0.N, cfg0.idle 0 (grid0.coords t) = false ∧ cfg0.idle 1 (grid0.coords t) = false
    ∧ cfg0.idle 2 (grid0.coords t) = false ∧ cfg0.idle 3 (grid0.coords t) = false := by decide +kernel
/-- Off the last column the two output windows are idle and not written back; on it they are live. -/
theorem outIdle : ∀ t : Fin cfg0.N, ¬cond4 (grid0.coords t) → (cfg0.idle 4 (grid0.coords t) = true ∧ (cfg0.win 4).flush t = false)
    ∧ (cfg0.idle 5 (grid0.coords t) = true ∧ (cfg0.win 5).flush t = false) := by decide +kernel
theorem outLive : ∀ t : Fin cfg0.N, cond4 (grid0.coords t) → cfg0.idle 4 (grid0.coords t) = false ∧ cfg0.idle 5 (grid0.coords t) = false := by
  decide +kernel

abbrev VO4 : View sig .tc .vmem S1024x1 .f32 := (Memref.whole cc0_stg4_0 : Memref sig .tc .vmem S1024x1 .f32).view
abbrev VO5 : View sig .tc .vmem S1024x1 .f32 := (Memref.whole cc0_stg5_0 : Memref sig .tc .vmem S1024x1 .f32).view
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x16 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2
abbrev VS0 : View sig .tc .vmem S1024x1 .f32 := scM0.view
abbrev VS1 : View sig .tc .vmem S1024x1 .f32 := scM1.view
abbrev VS2 : View sig .tc .vmem S1024x1 .f32 := scM2.view

theorem scRest_eq (c : Dev nD) :
    (Pipeline.scopedRest spec0 c : sProp 𝕄)
      = iprop((∃ d, owns (c : Thread nD τ) scM0 fullShare d) ∗ (∃ d, owns (c : Thread nD τ) scM1 fullShare d) ∗ (∃ d, owns (c : Thread nD τ) scM2 fullShare d)) := by
  rw [scopedRest0_eq]; simp only [scM0, scM1, scM2, owns_whole]; try rfl

end Cert.KernelIdeal.Hand

end
-- ==== Proof.KI.Runs.lean ====
import proofs.«421964_j23673859736135_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev Col (F : FTy → Type) [FloatOps F] : Type := Vec F S1024x1 .f32
abbrev Pcs (F : FTy → Type) [FloatOps F] : Type := List (View.Piece (Elt F) S1024x1 .f32)

/-- The five lists of pieces a run stores (two output buffers, three accumulators) with what the run proves of them. -/
abbrev RunT (P : Pcs F → Pcs F → Pcs F → Pcs F → Pcs F → Prop) : Type :=
  Σ' (L4 L5 LS0 LS1 : Pcs F), { LS2 : Pcs F // P L4 L5 LS0 LS1 LS2 }

variable (c : Dev nD)

/-- A whole buffer's cells at the contents that read back as `x` are the buffer owned at `x`. -/
theorem owns_back {sh : Shape} {e : EltTy} (a : Memref sig .tc .vmem sh e) (h : a.IsWhole) (x : sh.Idx → Elt F e) :
    (a.view.loc (c : Thread nD τ) ↦[a.view.set]{fullShare} h.unread x : sProp 𝕄)
      ⊢ iprop(∃ f, ⌜a.view.read (Elt F) f = x⌝ ∗ a.view.loc (c : Thread nD τ) ↦[a.view.set]{fullShare} f) := by
  iintro H; iexists _; isplitr; · ipureintro; exact h.read_unread _
  iexact H

variable (i : grid0.Coords)
  (arg2 : Memref sig .tc .vmem S1024x256 .bf16) (harg2 : arg2.IsWhole) (arg3 : Memref sig .tc .vmem S8192x256 .bf16) (harg3 : arg3.IsWhole)
  (arg4 : Memref sig .tc .vmem S1024x16 .bf16) (harg4 : arg4.IsWhole) (arg5 : Memref sig .tc .vmem S8192x16 .bf16) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (x0 : Vec F S1024x256 .bf16) (x1 : Vec F S8192x256 .bf16) (x2 : Vec F S1024x16 .bf16) (x3 : Vec F S8192x16 .bf16)

/-- An accumulator before the body: `none` where the body resets it before reading. -/
def accIn (a : Memref sig .tc .vmem S1024x1 .f32) : Option (Col F) → sProp 𝕄
  | some x => owns (c : Thread nD τ) a fullShare x
  | none => iprop(∃ d, owns (c : Thread nD τ) a fullShare d)

def wrote (a : Memref sig .tc .vmem S1024x1 .f32) (L : Pcs F) : sProp 𝕄 :=
  iprop(∃ f, a.view.loc (c : Thread nD τ) ↦[a.view.set]{fullShare} a.view.writes (Elt F) f L)

/-- An output buffer after the body: stored into only on the last column. -/
def outLeft (a : Memref sig .tc .vmem S1024x1 .f32) (x : Col F) (L : Pcs F) : Bool → sProp 𝕄
  | true => wrote c a L
  | false => owns (c : Thread nD τ) a fullShare x

/-- The one statement every run of the body shares; the runs differ in `s0 s1 s2`, `last` and the lists. -/
def RunSpec (s0 s1 s2 : Option (Col F)) (last : Bool) (L4 L5 LS0 LS1 LS2 : Pcs F) : Prop :=
  ∀ (xi4 xi5 : Col F) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ accIn c arg8 s0 ∗ accIn c arg9 s1 ∗ accIn c arg10 s2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ outLeft c arg6 xi4 L4 last ∗ outLeft c arg7 xi5 L5 last
            ∗ wrote c arg8 LS0 ∗ wrote c arg9 LS1 ∗ wrote c arg10 LS2) -∗ K ⟨⟩))
      ⊢ wp frame (wpE (defs₀ (F := F)) Variants.none c none) E (cc0__ntxent_kernel i arg2 harg2 arg3 harg3 arg4 harg4 arg5 harg5 arg6 harg6 arg7 harg7 arg8 harg8 arg9 harg9 arg10 harg10) K

abbrev Run (s0 s1 s2 : Option (Col F)) (last : Bool) : Type :=
  RunT (RunSpec c i arg2 harg2 arg3 harg3 arg4 harg4 arg5 harg5 arg6 harg6 arg7 harg7 arg8 harg8 arg9 harg9 arg10 harg10 x0 x1 x2 x3 s0 s1 s2 last)

set_option maxHeartbeats 4000000 in
/-- On the first column: the accumulators are reset before they are read, so they may hold anything. One argument serves a tile on the diagonal and a tile off it. -/
def kernelRun_R (b : Bool) (hc1 : cond1 i) (hd : Diag b i) (hc4 : ¬cond4 i) :
    Run c i arg2 harg2 arg3 harg3 arg4 harg4 arg5 harg5 arg6 harg6 arg7 harg7 arg8 harg8 arg9 harg9 arg10 harg10 x0 x1 x2 x3 none none none false := by
  cases b <;>
   (refine ⟨[], [], ?_, ?_, ?_, fun xi4 xi5 E K => ?run⟩
    case run =>
      simp only [cc0__ntxent_kernel_eq_skeleton]; unfold cc0__ntxent_kernel_skel
      simp only [k0_part1_eq_skeleton]
      unfold accIn outLeft wrote owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
      obtain rfl := harg2.eq_unread hf0; obtain rfl := harg3.eq_unread hf1; obtain rfl := harg4.eq_unread hf2; obtain rfl := harg5.eq_unread hf3
      obtain rfl := harg6.eq_unread hf4; obtain rfl := harg7.eq_unread hf5
      sl_exec (disch := first | exact hc1 | exact hd.1 | exact hd.2 | exact hc4)
      sl_step
      iapply Hk
      isplitl [H0]; · iapply (owns_back c arg2 harg2 x0); iexact H0
      isplitl [H1]; · iapply (owns_back c arg3 harg3 x1); iexact H1
      isplitl [H2]; · iapply (owns_back c arg4 harg4 x2); iexact H2
      isplitl [H3]; · iapply (owns_back c arg5 harg5 x3); iexact H3
      isplitl [H4]; · iapply (owns_back c arg6 harg6 xi4); iexact H4
      isplitl [H5]; · iapply (owns_back c arg7 harg7 xi5); iexact H5
      isplitl [HS0]; · iexists _; iexact HS0
      isplitl [HS1]; · iexists _; iexact HS1
      iexists _; iexact HS2)

set_option maxHeartbeats 4000000 in
/-- On a middle column: the accumulators come at what the point before left, and the output buffers are not touched. -/
def kernelRun_M (b : Bool) (hc1 : ¬cond1 i) (hd : Diag b i) (hc4 : ¬cond4 i) (xs0 xs1 xs2 : Col F) :
    Run c i arg2 harg2 arg3 harg3 arg4 harg4 arg5 harg5 arg6 harg6 arg7 harg7 arg8 harg8 arg9 harg9 arg10 harg10 x0 x1 x2 x3 (some xs0) (some xs1) (some xs2) false := by
  cases b <;>
   (refine ⟨[], [], ?_, ?_, ?_, fun xi4 xi5 E K => ?run⟩
    case run =>
      simp only [cc0__ntxent_kernel_eq_skeleton]; unfold cc0__ntxent_kernel_skel
      simp only [k0_part1_eq_skeleton]
      unfold accIn outLeft wrote owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
      obtain rfl := harg2.eq_unread hf0; obtain rfl := harg3.eq_unread hf1; obtain rfl := harg4.eq_unread hf2; obtain rfl := harg5.eq_unread hf3
      obtain rfl := harg6.eq_unread hf4; obtain rfl := harg7.eq_unread hf5
      obtain rfl := harg8.eq_unread hfs0; obtain rfl := harg9.eq_unread hfs1; obtain rfl := harg10.eq_unread hfs2
      sl_exec (disch := first | exact hc1 | exact hd.1 | exact hd.2 | exact hc4)
      sl_step
      iapply Hk
      isplitl [H0]; · iapply (owns_back c arg2 harg2 x0); iexact H0
      isplitl [H1]; · iapply (owns_back c arg3 harg3 x1); iexact H1
      isplitl [H2]; · iapply (owns_back c arg4 harg4 x2); iexact H2
      isplitl [H3]; · iapply (owns_back c arg5 harg5 x3); iexact H3
      isplitl [H4]; · iapply (owns_back c arg6 harg6 xi4); iexact H4
      isplitl [H5]; · iapply (owns_back c arg7 harg7 xi5); iexact H5
      isplitl [HS0]; · iexists _; iexact HS0
      isplitl [HS1]; · iexists _; iexact HS1
      iexists _; iexact HS2)

set_option maxHeartbeats 4000000 in
/-- On the last column: as on a middle one, and the two sums are stored whole into the two output buffers. -/
def kernelRun_L (b : Bool) (hc1 : ¬cond1 i) (hd : Diag b i) (hc4 : cond4 i) (xs0 xs1 xs2 : Col F) :
    Run c i arg2 harg2 arg3 harg3 arg4 harg4 arg5 harg5 arg6 harg6 arg7 harg7 arg8 harg8 arg9 harg9 arg10 harg10 x0 x1 x2 x3 (some xs0) (some xs1) (some xs2) true := by
  cases b <;>
   (refine ⟨?_, ?_, ?_, ?_, ?_, fun xi4 xi5 E K => ?run⟩
    case run =>
      simp only [cc0__ntxent_kernel_eq_skeleton]; unfold cc0__ntxent_kernel_skel
      simp only [k0_part1_eq_skeleton]
      unfold accIn outLeft wrote owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
      obtain rfl := harg2.eq_unread hf0; obtain rfl := harg3.eq_unread hf1; obtain rfl := harg4.eq_unread hf2; obtain rfl := harg5.eq_unread hf3
      obtain rfl := harg6.eq_unread hf4; obtain rfl := harg7.eq_unread hf5
      obtain rfl := harg8.eq_unread hfs0; obtain rfl := harg9.eq_unread hfs1; obtain rfl := harg10.eq_unread hfs2
      sl_exec (disch := first | exact hc1 | exact hd.1 | exact hd.2 | exact hc4)
      sl_step
      iapply Hk
      isplitl [H0]; · iapply (owns_back c arg2 harg2 x0); iexact H0
      isplitl [H1]; · iapply (owns_back c arg3 harg3 x1); iexact H1
      isplitl [H2]; · iapply (owns_back c arg4 harg4 x2); iexact H2
      isplitl [H3]; · iapply (owns_back c arg5 harg5 x3); iexact H3
      isplitl [H4]; · iexists _; iexact H4
      isplitl [H5]; · iexists _; iexact H5
      isplitl [HS0]; · iexists _; iexact HS0
      isplitl [HS1]; · iexists _; iexact HS1
      iexists _; iexact HS2)

end Cert.KernelIdeal.Hand

end
-- ==== Proof.KI.Frame.lean ====
import proofs.«421964_j23673859736135_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev Vec5 (F : FTy → Type) [FloatOps F] : Type := Col F × Col F × Col F × Col F × Col F

theorem c1_of (t : Fin cfg0.N) (h : t.val % 8 = 0) : cond1 (grid0.coords t) := (hcond1 t).mpr h
theorem nc1_of (t : Fin cfg0.N) (h : ¬t.val % 8 = 0) : ¬cond1 (grid0.coords t) := fun hh => h ((hcond1 t).mp hh)
theorem c2_of (t : Fin cfg0.N) (h : t.val / 8 = t.val % 8) : cond2 (grid0.coords t) := (hcond2 t).mpr h
theorem nc2_of (t : Fin cfg0.N) (h : ¬t.val / 8 = t.val % 8) : ¬cond2 (grid0.coords t) := fun hh => h ((hcond2 t).mp hh)
theorem c3_of (t : Fin cfg0.N) (h : ¬t.val / 8 = t.val % 8) : cond3 (grid0.coords t) := (hcond3 t).mpr h
theorem nc3_of (t : Fin cfg0.N) (h : t.val / 8 = t.val % 8) : ¬cond3 (grid0.coords t) := fun hh => ((hcond3 t).mp hh) h
theorem c4_of (t : Fin cfg0.N) (h : t.val % 8 = 7) : cond4 (grid0.coords t) := (hcond4 t).mpr h
theorem nc4_of (t : Fin cfg0.N) (h : ¬t.val % 8 = 7) : ¬cond4 (grid0.coords t) := fun hh => h ((hcond4 t).mp hh)

/-- The contents the five buffers hold once a run's pieces are stored into them. -/
def read5 {P : Pcs F → Pcs F → Pcs F → Pcs F → Pcs F → Prop} (r : RunT P) : Vec5 F :=
  (VO4.read (Elt F) (VO4.writes (Elt F) VO4.junk r.1), VO5.read (Elt F) (VO5.writes (Elt F) VO5.junk r.2.1),
   VS0.read (Elt F) (VS0.writes (Elt F) VS0.junk r.2.2.1), VS1.read (Elt F) (VS1.writes (Elt F) VS1.junk r.2.2.2.1),
   VS2.read (Elt F) (VS2.writes (Elt F) VS2.junk r.2.2.2.2.1))

abbrev Cov (L : Pcs F) : Prop := ∀ y : S1024x1.Idx, ∃ pc ∈ L, y ∈ pc.1.set
abbrev Cov3 {P : Pcs F → Pcs F → Pcs F → Pcs F → Pcs F → Prop} (r : RunT P) : Prop := Cov r.2.2.1 ∧ Cov r.2.2.2.1 ∧ Cov r.2.2.2.2.1
abbrev Cov2 {P : Pcs F → Pcs F → Pcs F → Pcs F → Pcs F → Prop} (r : RunT P) : Prop := Cov r.1 ∧ Cov r.2.1

theorem cov_of (L : Pcs F) (h : View.Piece.tiledL L S1024x1.size = true) : Cov L := View.cover_of_tiledL L S1024x1.size h

variable (c : Dev nD) (t : Fin cfg0.N)

/-- Every point takes exactly one of the two tile branches. -/
theorem diag_at : Diag (decide (t.val / 8 = t.val % 8)) (grid0.coords t) := by
  by_cases h : t.val / 8 = t.val % 8
  · rw [decide_eq_true h]; exact show cond2 _ ∧ ¬cond3 _ from ⟨c2_of t h, nc3_of t h⟩
  · rw [decide_eq_false h]; exact show ¬cond2 _ ∧ cond3 _ from ⟨nc2_of t h, c3_of t h⟩

abbrev rAt_R (b : Bool) (h1 : t.val % 8 = 0) (hd : Diag b (grid0.coords t)) (h4 : ¬t.val % 8 = 7) :=
  kernelRun_R (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (iblk m c 3 t) b (c1_of t h1) hd (nc4_of t h4)
theorem cov_R (b : Bool) (h1 : t.val % 8 = 0) (hd : Diag b (grid0.coords t)) (h4 : ¬t.val % 8 = 7) : Cov3 (rAt_R m c t b h1 hd h4) := by
  cases b <;> exact ⟨cov_of _ (by sl_kernel_rfl), cov_of _ (by sl_kernel_rfl), cov_of _ (by sl_kernel_rfl)⟩

abbrev rAt_M (b : Bool) (h1 : ¬t.val % 8 = 0) (hd : Diag b (grid0.coords t)) (h4 : ¬t.val % 8 = 7) (xs0 xs1 xs2 : Col F) :=
  kernelRun_M (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (iblk m c 3 t) b (nc1_of t h1) hd (nc4_of t h4) xs0 xs1 xs2
theorem cov_M (b : Bool) (h1 : ¬t.val % 8 = 0) (hd : Diag b (grid0.coords t)) (h4 : ¬t.val % 8 = 7) (xs0 xs1 xs2 : Col F) :
    Cov3 (rAt_M m c t b h1 hd h4 xs0 xs1 xs2) := by
  cases b <;> exact ⟨cov_of _ (by sl_kernel_rfl), cov_of _ (by sl_kernel_rfl), cov_of _ (by sl_kernel_rfl)⟩

abbrev rAt_L (b : Bool) (h1 : ¬t.val % 8 = 0) (hd : Diag b (grid0.coords t)) (h4 : t.val % 8 = 7) (xs0 xs1 xs2 : Col F) :=
  kernelRun_L (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (iblk m c 3 t) b (nc1_of t h1) hd (c4_of t h4) xs0 xs1 xs2
theorem cov_L (b : Bool) (h1 : ¬t.val % 8 = 0) (hd : Diag b (grid0.coords t)) (h4 : t.val % 8 = 7) (xs0 xs1 xs2 : Col F) :
    Cov3 (rAt_L m c t b h1 hd h4 xs0 xs1 xs2) ∧ Cov2 (rAt_L m c t b h1 hd h4 xs0 xs1 xs2) := by
  cases b <;> exact ⟨⟨cov_of _ (by sl_kernel_rfl), cov_of _ (by sl_kernel_rfl), cov_of _ (by sl_kernel_rfl)⟩, cov_of _ (by sl_kernel_rfl), cov_of _ (by sl_kernel_rfl)⟩

/-- What a point leaves in the five buffers, from what the point before left. -/
def nextAt (p : Vec5 F) : Vec5 F :=
  if h1 : t.val % 8 = 0 then read5 (rAt_R m c t _ h1 (diag_at t) (by omega))
  else if h4 : t.val % 8 = 7 then read5 (rAt_L m c t _ h1 (diag_at t) h4 p.2.2.1 p.2.2.2.1 p.2.2.2.2)
  else read5 (rAt_M m c t _ h1 (diag_at t) h4 p.2.2.1 p.2.2.2.1 p.2.2.2.2)

theorem nextAt_first (h1 : t.val % 8 = 0) (p q : Vec5 F) : nextAt m c t p = nextAt m c t q := by
  unfold nextAt; rw [dif_pos h1, dif_pos h1]

def outsAt : (n : ℕ) → n < cfg0.N → Vec5 F
  | 0, hn => nextAt m c ⟨0, hn⟩ (VO4.junk, VO4.junk, VO4.junk, VO4.junk, VO4.junk)
  | n + 1, hn => nextAt m c ⟨n + 1, hn⟩ (outsAt n (Nat.lt_of_succ_lt hn))

abbrev prevAt : Vec5 F := outsAt m c (t.val - 1) (Nat.lt_of_le_of_lt (Nat.sub_le _ _) t.isLt)

theorem outsAt_eq : outsAt m c t.val t.isLt = nextAt m c t (prevAt m c t) := by
  obtain ⟨n, hn⟩ := t
  cases n with
  | zero => exact nextAt_first m c _ (Nat.zero_mod 8) _ _
  | succ n => rfl

theorem outsAt_R (h1 : t.val % 8 = 0) : outsAt m c t.val t.isLt = read5 (rAt_R m c t _ h1 (diag_at t) (by omega)) := by
  rw [outsAt_eq]; unfold nextAt; rw [dif_pos h1]
theorem outsAt_M (h1 : ¬t.val % 8 = 0) (h4 : ¬t.val % 8 = 7) : outsAt m c t.val t.isLt = read5 (rAt_M m c t _ h1 (diag_at t) h4 (prevAt m c t).2.2.1 (prevAt m c t).2.2.2.1 (prevAt m c t).2.2.2.2) := by
  rw [outsAt_eq]; unfold nextAt; rw [dif_neg h1, dif_neg h4]
theorem outsAt_L (h1 : ¬t.val % 8 = 0) (h4 : t.val % 8 = 7) : outsAt m c t.val t.isLt = read5 (rAt_L m c t _ h1 (diag_at t) h4 (prevAt m c t).2.2.1 (prevAt m c t).2.2.2.1 (prevAt m c t).2.2.2.2) := by
  rw [outsAt_eq]; unfold nextAt; rw [dif_neg h1, dif_pos h4]

def PhiS : (n : ℕ) → n ≤ cfg0.N → sProp 𝕄
  | 0, _ => Pipeline.scopedRest spec0 c
  | n + 1, hn => iprop(owns (c : Thread nD τ) scM0 fullShare (outsAt m c n hn).2.2.1 ∗ owns (c : Thread nD τ) scM1 fullShare (outsAt m c n hn).2.2.2.1 ∗ owns (c : Thread nD τ) scM2 fullShare (outsAt m c n hn).2.2.2.2)

theorem PhiS_zero (n : ℕ) (h : n ≤ cfg0.N) (hz : n = 0) : PhiS m c n h = Pipeline.scopedRest spec0 c := by
  subst hz; rfl

theorem PhiS_succ (n : ℕ) (hn : n < cfg0.N) :
    PhiS m c (n + 1) hn = iprop(owns (c : Thread nD τ) scM0 fullShare (outsAt m c n hn).2.2.1 ∗ owns (c : Thread nD τ) scM1 fullShare (outsAt m c n hn).2.2.2.1 ∗ owns (c : Thread nD τ) scM2 fullShare (outsAt m c n hn).2.2.2.2) := rfl

theorem PhiS_pos (n : ℕ) (h : n ≤ cfg0.N) (hz : n ≠ 0) :
    PhiS m c n h = iprop(owns (c : Thread nD τ) scM0 fullShare (outsAt m c (n - 1) (by omega)).2.2.1 ∗ owns (c : Thread nD τ) scM1 fullShare (outsAt m c (n - 1) (by omega)).2.2.2.1 ∗ owns (c : Thread nD τ) scM2 fullShare (outsAt m c (n - 1) (by omega)).2.2.2.2) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (w : Fin cfg0.W) : (dats m 0 c).A w = V m c (Pipeline.arrRef spec0 w) := by
  dsimp only [dats]

theorem PhiS_castSucc :
    (dats m 0 c).Φ t.castSucc = PhiS m c t.val (Nat.le_of_lt t.isLt) := by
  dsimp only [dats]; simp only [Fin.coe_castSucc]

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = (outsAt m c t.val t.isLt).1 := by dsimp only [dats]
theorem after5 : (dats m 0 c).after 5 t = (outsAt m c t.val t.isLt).2.1 := by dsimp only [dats]

theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

def bodyPre : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in0 : (dats m 0 c).leavesExact 0 t = owns (c : Thread nD τ) (ms0 t) fullShare (iblk m c 0 t) := by
  unfold Dat.leavesExact; rw [(liveIn t).1, after0]
theorem leaves_in1 : (dats m 0 c).leavesExact 1 t = owns (c : Thread nD τ) (ms1 t) fullShare (iblk m c 1 t) := by
  unfold Dat.leavesExact; rw [(liveIn t).2.1, after1]
theorem leaves_in2 : (dats m 0 c).leavesExact 2 t = owns (c : Thread nD τ) (ms2 t) fullShare (iblk m c 2 t) := by
  unfold Dat.leavesExact; rw [(liveIn t).2.2.1, after2]
theorem leaves_in3 : (dats m 0 c).leavesExact 3 t = owns (c : Thread nD τ) (ms3 t) fullShare (iblk m c 3 t) := by
  unfold Dat.leavesExact; rw [(liveIn t).2.2.2, after3]
theorem leaves_out4 (h : t.val % 8 = 7) : (dats m 0 c).leavesExact 4 t = owns (c : Thread nD τ) (ms4 t) fullShare (outsAt m c t.val t.isLt).1 := by
  unfold Dat.leavesExact; rw [(outLive t (c4_of t h)).1, after4]
theorem leaves_out5 (h : t.val % 8 = 7) : (dats m 0 c).leavesExact 5 t = owns (c : Thread nD τ) (ms5 t) fullShare (outsAt m c t.val t.isLt).2.1 := by
  unfold Dat.leavesExact; rw [(outLive t (c4_of t h)).2, after5]
theorem leaves_idle4 (h : ¬t.val % 8 = 7) : (dats m 0 c).leavesExact 4 t = iprop(∃ d, owns (c : Thread nD τ) (ms4 t) fullShare ((dats m 0 c).before 4 t d)) :=
  Dat.leavesExact_idle (dats m 0 c) 4 t (outIdle t (nc4_of t h)).1.1 (outIdle t (nc4_of t h)).1.2
theorem leaves_idle5 (h : ¬t.val % 8 = 7) : (dats m 0 c).leavesExact 5 t = iprop(∃ d, owns (c : Thread nD τ) (ms5 t) fullShare ((dats m 0 c).before 5 t d)) :=
  Dat.leavesExact_idle (dats m 0 c) 5 t (outIdle t (nc4_of t h)).2.1 (outIdle t (nc4_of t h)).2.2

/-- A buffer holding pieces that cover it is owned at those pieces read back, through any view of the shape. -/
theorem owns_wrote {κ' : Kind} {sp' : Space} (v' : View sig κ' sp' S1024x1 .f32) (a : Memref sig .tc .vmem S1024x1 .f32) (L : Pcs F) (h : Cov L) :
    wrote c a L ⊢ owns (c : Thread nD τ) a fullShare (v'.read (Elt F) (v'.writes (Elt F) v'.junk L)) := by
  unfold wrote owns; iintro ⟨%f, H⟩; iexists _; isplitr
  swap; · iexact H
  ipureintro; exact View.read_writes_of_cover _ _ _ _ _ h

/-- The invariant before a point gives the accumulators as each kind of point wants them: at anything where they are about to be reset, else at what the point before left. -/
theorem PhiS_reset : PhiS m c t.val (Nat.le_of_lt t.isLt) ⊢ iprop(accIn c scM0 none ∗ accIn c scM1 none ∗ accIn c scM2 none) := by
  unfold accIn
  by_cases h : t.val = 0
  · rw [PhiS_zero m c _ _ h, scRest_eq]
  · rw [PhiS_pos m c _ _ h]
    iintro ⟨HS0, HS1, HS2⟩
    isplitl [HS0]; · iexists _; iexact HS0
    isplitl [HS1]; · iexists _; iexact HS1
    iexists _; iexact HS2
theorem PhiS_named (h : t.val ≠ 0) : PhiS m c t.val (Nat.le_of_lt t.isLt)
    ⊢ iprop(accIn c scM0 (some (prevAt m c t).2.2.1) ∗ accIn c scM1 (some (prevAt m c t).2.2.2.1) ∗ accIn c scM2 (some (prevAt m c t).2.2.2.2)) := by
  unfold accIn; rw [PhiS_pos m c _ _ h]

set_option maxHeartbeats 4000000 in
/-- The body's obligation at a point, from any run of the body there. -/
theorem sound_of (s0 s1 s2 : Option (Col F)) (last : Bool) (r : Run c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (iblk m c 0 t) (iblk m c 1 t) (iblk m c 2 t) (iblk m c 3 t) s0 s1 s2 last)
    (hr : outsAt m c t.val t.isLt = read5 r) (h3 : Cov3 r) (h2 : last = true → Cov2 r)
    (h4 : match last with | true => t.val % 8 = 7 | false => ¬t.val % 8 = 7)
    (hΦ : PhiS m c t.val (Nat.le_of_lt t.isLt) ⊢ iprop(accIn c scM0 s0 ∗ accIn c scM1 s1 ∗ accIn c scM2 s2)) :
    bodyPre m c t ⊢ wp frame (wpE (defs₀ (F := F)) Variants.none c none) Set.univ (bodyAt0 t) (fun _ => bodyPost m c t) := by
  have hrun := r.2.2.2.2.2
  unfold RunSpec at hrun
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, PhiS_castSucc m c t]
  iintro ⟨HS, Ho, ⟨%d0, H0⟩, ⟨%d1, H1⟩, ⟨%d2, H2⟩, ⟨%d3, H3⟩, ⟨%d4, H4⟩, ⟨%d5, H5⟩⟩
  ihave HS' := hΦ $$ HS
  icases HS' with ⟨HS0, HS1, HS2⟩
  iapply (hrun _ _ Set.univ _)
  iframe H0 H1 H2 H3 H4 H5 HS0 HS1 HS2
  iintro ⟨H0, H1, H2, H3, H4, H5, HS0, HS1, HS2⟩
  cases last <;>
   (first | rw [leaves_idle4 m c t h4, leaves_idle5 m c t h4, hr] | rw [leaves_out4 m c t h4, leaves_out5 m c t h4, hr]
    unfold read5 outLeft; dsimp only
    isplitl [HS0 HS1 HS2]
    · isplitl [HS0]; · iapply (owns_wrote c VS0 scM0 _ h3.1); iexact HS0
      isplitl [HS1]; · iapply (owns_wrote c VS1 scM1 _ h3.2.1); iexact HS1
      iapply (owns_wrote c VS2 scM2 _ h3.2.2); iexact HS2
    iframe Ho H0 H1 H2 H3
    first
    | (isplitl [H4]; · iexists _; iexact H4
       iexists _; iexact H5)
    | (isplitl [H4]; · iapply (owns_wrote c VO4 (ms4 t) _ (h2 rfl).1); iexact H4
       iapply (owns_wrote c VO5 (ms5 t) _ (h2 rfl).2); iexact H5))

theorem sound_body : bodyPre m c t ⊢ wp frame (wpE (defs₀ (F := F)) Variants.none c none) Set.univ (bodyAt0 t) (fun _ => bodyPost m c t) := by
  by_cases h1 : t.val % 8 = 0
  · have h4 : ¬t.val % 8 = 7 := by omega
    exact sound_of m c t none none none false (rAt_R m c t _ h1 (diag_at t) h4) (outsAt_R m c t h1) (cov_R m c t _ h1 _ h4) (fun h => nomatch h) h4 (PhiS_reset m c t)
  · by_cases h4 : t.val % 8 = 7
    · exact sound_of m c t (some (prevAt m c t).2.2.1) (some (prevAt m c t).2.2.2.1) (some (prevAt m c t).2.2.2.2) true (rAt_L m c t _ h1 (diag_at t) h4 (prevAt m c t).2.2.1 (prevAt m c t).2.2.2.1 (prevAt m c t).2.2.2.2) (outsAt_L m c t h1 h4) (cov_L m c t _ h1 _ h4 _ _ _).1 (fun _ => (cov_L m c t _ h1 _ h4 _ _ _).2) h4 (PhiS_named m c t (by omega))
    · exact sound_of m c t (some (prevAt m c t).2.2.1) (some (prevAt m c t).2.2.2.1) (some (prevAt m c t).2.2.2.2) false (rAt_M m c t _ h1 (diag_at t) h4 (prevAt m c t).2.2.1 (prevAt m c t).2.2.2.1 (prevAt m c t).2.2.2.2) (outsAt_M m c t h1 h4) (cov_M m c t _ h1 _ h4 _ _ _) (fun h => nomatch h) h4 (PhiS_named m c t (by omega))

theorem body_obligation : BodyObligation (dats (F := F) m 0 c) (defs₀ (F := F)) Variants.none () Set.univ := fun t => by
  rw [bigSep_W0, bigSep_W0]
  exact sound_body m c t

theorem hin : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

theorem hout : (dats m 0 c).Φ (Fin.last cfg0.N) ⊢ Pipeline.scopedRest spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scRest_eq]
  iintro ⟨HS0, HS1, HS2⟩
  isplitl [HS0]; · iexists _; iexact HS0
  isplitl [HS1]; · iexists _; iexact HS1
  iexists _; iexact HS2

end Cert.KernelIdeal.Hand

end
-- ==== Proof.KI.Launch.lean ====
import proofs.«421964_j23673859736135_3_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem arrImage : Finset.univ.image (Pipeline.arrRef spec0) = [main_v0, main_v1, main_v2_0, main_v2_1].toFinset := by decide

def Wout (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

theorem bigSep_arrImage {M : Type} [URA M] (Φ : Ref sig .tc → sProp M) :
    bigSep (Finset.univ.image (Pipeline.arrRef spec0)) Φ = iprop(Φ main_v0 ∗ Φ main_v1 ∗ Φ main_v2_0 ∗ Φ main_v2_1) :=
  bigSep_eq_bigSepL_of_eq [main_v0, main_v1, main_v2_0, main_v2_1] arrImage (by decide) Φ

theorem hsplit (c : Dev nD) :
    (Pipeline.arrBufs spec0 c (V m c) : sProp 𝕄) ⊢ (dats m 0 c).arrays ((dats m 0 c).arrAt · 0) := by
  unfold Pipeline.arrBufs Dat.arrays
  rw [bigSep_arrImage, bigSep_W0]
  rw [(arr_whole0 0).set_eq_univ, (arr_whole0 2).set_eq_univ, (arr_whole0 4).set_eq_univ, (arr_whole0 5).set_eq_univ]
  have hs0 : (dats m 0 c).share 0 = fullShare.left := rfl
  have hs1 : (dats m 0 c).share 1 = fullShare.right := rfl
  have hs2 : (dats m 0 c).share 2 = fullShare.left := rfl
  have hs3 : (dats m 0 c).share 3 = fullShare.right := rfl
  have hs4 : (dats m 0 c).share 4 = fullShare := rfl
  have hs5 : (dats m 0 c).share 5 = fullShare := rfl
  rw [hs0, hs1, hs2, hs3, hs4, hs5]
  iintro ⟨H0, H1, H2, H3⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H2]; · iexact H2
  iexact H3

abbrev OffShared (op : HloOp τ sig (Elt F)) : Prop :=
  (Proc.devRef .tc main_v0 ∉ op.bufs ∧ Proc.devRef .tc main_v1 ∉ op.bufs)
    ∧ (Proc.devRef .tc main_v2_0 ∉ op.writes ∧ Proc.devRef .tc main_v2_1 ∉ op.writes)

theorem forall_lines {p : HloOp τ sig (Elt F) → Prop} (h : (tailOps (F := F)).Forall (List.Forall p)) :
    ∀ ops ∈ (tailOps (F := F)), ∀ op ∈ ops, p op :=
  fun ops hops op hop => List.forall_iff_forall_mem.mp (List.forall_iff_forall_mem.mp h ops hops) op hop

theorem tail_off : ∀ ops ∈ (tailOps (F := F)), ∀ op ∈ ops, OffShared op := forall_lines (by
  simp only [List.Forall, OffShared, StableHlo.nullary_bufs, StableHlo.unary_bufs, StableHlo.binary_bufs, StableHlo.ternary_bufs,
    StableHlo.reshape_bufs, StableHlo.nullary_writes, StableHlo.unary_writes, StableHlo.binary_writes, StableHlo.ternary_writes,
    StableHlo.reshape_writes, Finset.mem_insert, Finset.mem_singleton, not_or]
  repeat' constructor
  all_goals decide)

abbrev restS : Finset (Ref sig .tc) :=
  (Finset.univ.filter fun b : Ref sig .tc => ¬ b.isScoped) \ Finset.univ.image (Pipeline.arrRef spec0)

def tailS : Finset (DevRef τ sig) :=
  (({main_v2_0, main_v2_1} : Finset (Ref sig .tc)) ∪ restS).map ⟨Proc.devRef (sig := sig) .tc, Proc.devRef_injective _⟩

theorem held_tailS (c : Dev nD) (W : Valuation τ sig (Elt F)) :
    (StableHlo.held (c.tc : Thread nD τ) tailS W : sProp 𝕄)
      = iprop((((c.tc : Thread nD τ).loc main_v2_0 ↦{fullShare} W (Proc.devRef .tc main_v2_0))
            ∗ ((c.tc : Thread nD τ).loc main_v2_1 ↦{fullShare} W (Proc.devRef .tc main_v2_1)))
          ∗ Pipeline.unscopedRest spec0 c (fun b => W (Proc.devRef .tc b))) := by
  have hdisj : Disjoint ({main_v2_0, main_v2_1} : Finset (Ref sig .tc)) restS := by decide
  unfold StableHlo.held tailS Pipeline.unscopedRest
  rw [bigSep_map, bigSep_union hdisj, bigSep_insert (by decide), bigSep_singleton]
  rfl

theorem sub_tailS (op : HloOp τ sig (Elt F)) (h₁ : op.bufs ⊆ StableHlo.tcRefs τ sig)
    (h₀ : Proc.devRef .tc main_v0 ∉ op.bufs) (h₀' : Proc.devRef .tc main_v1 ∉ op.bufs) : op.bufs ⊆ tailS := by
  intro b hb
  have hu : b ∈ Pipeline.ucRefs τ sig := Pipeline.sub_ucRefs op h₁ hb
  simp only [tailS, restS, Pipeline.ucRefs, StableHlo.tcRefs, Finset.mem_map, Finset.mem_filter, Finset.mem_union,
    Finset.mem_sdiff, Finset.mem_univ, true_and, Function.Embedding.coeFn_mk] at hu ⊢
  obtain ⟨⟨r, rfl⟩, hr⟩ := hu
  refine ⟨r, ?_, rfl⟩
  by_cases h : r ∈ Finset.univ.image (Pipeline.arrRef spec0)
  · rw [arrImage] at h
    simp only [List.toFinset_cons, List.toFinset_nil, Finset.mem_insert, Finset.mem_singleton, insert_empty_eq] at h
    rcases h with rfl | rfl | rfl | rfl
    · exact absurd hb h₀
    · exact absurd hb h₀'
    · exact Or.inl (Finset.mem_insert_self _ _)
    · exact Or.inl (Finset.mem_insert_of_mem (Finset.mem_singleton_self _))
  · exact Or.inr ⟨hr, h⟩

theorem tail_sub : ∀ ops ∈ (tailOps (F := F)), ∀ op ∈ ops, op.bufs ⊆ tailS := fun ops hops op hop =>
  sub_tailS op (forall_lines (show _ ∧ _ ∧ _ ∧ _ ∧ _ from ⟨hostOps1_sub, hostOps1_1_sub, hostOps1_2_sub, hostOps1_3_sub, hostOps1_4_sub⟩) ops hops op hop)
    (tail_off ops hops op hop).1.1 (tail_off ops hops op hop).1.2

theorem tail_fresh : ∀ ops ∈ (tailOps (F := F)), ∀ op ∈ ops, op.fresh = ∅ := forall_lines (by
  simp only [List.Forall]; repeat' constructor)

theorem Wout_v2_0 (c : Dev nD) : Wout m c (Proc.devRef .tc main_v2_0) = (dats m 0 c).arrAt 4 cfg0.N := by
  unfold Wout
  rw [Function.update_of_ne (StableHlo.devRef_ne_of_ne (by decide)), Function.update_self]
theorem Wout_v2_1 (c : Dev nD) : Wout m c (Proc.devRef .tc main_v2_1) = (dats m 0 c).arrAt 5 cfg0.N := by
  unfold Wout
  rw [Function.update_self]
theorem Wout_rest (c : Dev nD) (b : Ref sig .tc) (hb : b ∈ restS) : Wout m c (Proc.devRef .tc b) = V m c b := by
  have h0 : b ≠ main_v2_0 := fun e => (Finset.mem_sdiff.mp hb).2 (e ▸ (by decide : main_v2_0 ∈ Finset.univ.image (Pipeline.arrRef spec0)))
  have h1 : b ≠ main_v2_1 := fun e => (Finset.mem_sdiff.mp hb).2 (e ▸ (by decide : main_v2_1 ∈ Finset.univ.image (Pipeline.arrRef spec0)))
  unfold Wout
  rw [Function.update_of_ne (StableHlo.devRef_ne_of_ne h1), Function.update_of_ne (StableHlo.devRef_ne_of_ne h0)]

theorem after_v2_0 (c : Dev nD) :
    StableHlo.after (tailOps (F := F)).flatten (Wout m c) (Proc.devRef .tc main_v2_0) = (dats m 0 c).arrAt 4 cfg0.N := by
  rw [StableHlo.after_of_forall_not_mem _ _ fun op hop => ?_, Wout_v2_0]
  obtain ⟨ops, hops, hop'⟩ := List.mem_flatten.mp hop
  exact (tail_off ops hops op hop').2.1
theorem after_v2_1 (c : Dev nD) :
    StableHlo.after (tailOps (F := F)).flatten (Wout m c) (Proc.devRef .tc main_v2_1) = (dats m 0 c).arrAt 5 cfg0.N := by
  rw [StableHlo.after_of_forall_not_mem _ _ fun op hop => ?_, Wout_v2_1]
  obtain ⟨ops, hops, hop'⟩ := List.mem_flatten.mp hop
  exact (tail_off ops hops op hop').2.2

theorem rest_exit (c : Dev nD) :
    (Pipeline.unscopedRest spec0 c (fun b => Wout m c (Proc.devRef .tc b)) : sProp 𝕄) = Pipeline.unscopedRest spec0 c (V m c) := by
  unfold Pipeline.unscopedRest
  exact bigSep_congr fun b hb => by dsimp only; rw [Wout_rest m c b hb]

theorem held_exit (c : Dev nD) :
    (StableHlo.held (c.tc : Thread nD τ) tailS (Wout m c) : sProp 𝕄)
      = iprop((((c.tc : Thread nD τ).loc main_v2_0 ↦{fullShare} (dats m 0 c).arrAt 4 cfg0.N)
            ∗ ((c.tc : Thread nD τ).loc main_v2_1 ↦{fullShare} (dats m 0 c).arrAt 5 cfg0.N))
          ∗ Pipeline.unscopedRest spec0 c (V m c)) := by
  rw [held_tailS, Wout_v2_0, Wout_v2_1, rest_exit]

theorem held_after (c : Dev nD) :
    (StableHlo.held (c.tc : Thread nD τ) tailS (StableHlo.after (tailOps (F := F)).flatten (Wout m c)) : sProp 𝕄)
      = iprop((((c.tc : Thread nD τ).loc main_v2_0 ↦{fullShare} (dats m 0 c).arrAt 4 cfg0.N)
            ∗ ((c.tc : Thread nD τ).loc main_v2_1 ↦{fullShare} (dats m 0 c).arrAt 5 cfg0.N))
          ∗ Pipeline.unscopedRest spec0 c (fun b => StableHlo.after (tailOps (F := F)).flatten (Wout m c) (Proc.devRef .tc b))) := by
  rw [held_tailS, after_v2_0, after_v2_1]

set_option backward.isDefEq.respectTransparency.types false in

theorem htail (c : Dev nD) (Q' : PUnit → sProp 𝕄) :
    iprop((iprop((dats m 0 c).arrays ((dats m 0 c).arrAt · cfg0.N)
              ∗ Pipeline.unscopedRest spec0 c (fun b => StableHlo.after (tailOps (F := F)).flatten (Wout m c) (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain ((tailOps (F := F)).map StableHlo.seq)) Q' := by
  unfold Dat.arrays
  rw [bigSep_W0]
  rw [(arr_whole0 0).set_eq_univ, (arr_whole0 2).set_eq_univ, (arr_whole0 4).set_eq_univ, (arr_whole0 5).set_eq_univ]
  rw [show (dats m 0 c).share 4 = fullShare from rfl, show (dats m 0 c).share 5 = fullShare from rfl]
  rw [← List.append_nil ((tailOps (F := F)).map StableHlo.seq)]
  iintro ⟨Hk, Hb, ⟨A0, A1, A2, A3, A4, A5⟩, HU⟩
  ihave HS := (Entails.of_eq (held_exit m c).symm) $$ [A4 A5 HU]
  · iframe
  iapply (Pipeline.wp_seqs_then (fun q => (cfgs q).toPCfg (Val := Elt F)) defs₀ Variants.none c tailS [] tailOps tail_sub tail_fresh (Wout m c)) $$ [Hb HS]
  · iframe
  iintro Hb
  rw [Pipeline.chain_nil, wp_pure, held_after]
  imodintro
  iapply Hk
  icases Hb with ⟨-, ⟨A4, A5⟩, HU⟩
  iframe

set_option maxHeartbeats 8000000 in
set_option backward.isDefEq.respectTransparency.types false in

theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after (tailOps (F := F)).flatten (Wout m c) (Proc.devRef .tc b)) :=
  Pipeline.θ_run_region_noSem_pf_tail (fun q => (cfgs q).toPCfg (Val := Elt F)) (fun q => (cfgs q).toPCfg_adm) (dats m) () cellOf_inj 0
    winFacts₀0 (Pipeline.PreFacts.none _) emb₁ defs₀ Variants.none m ρ main (fun _ => Pipeline.chain ((tailOps (F := F)).map StableHlo.seq))
    (fun c => (body_obligation m c).loose) block_pos0 arr_whole0 stage_whole0 (fun _ _ => rfl)
    (initOf (Pipeline.cells cfgs cellOf_inj) (Pipeline.launchToks cfgs cellOf_inj)) .rfl
    (V m) (hmain m Variants.none) (hsplit m) (fun _ k => k.elim0)
    (fun _ => iprop(emp)) (fun _ => iprop(emp))
    (fun c => Pipeline.unscopedRest spec0 c (V m c))
    (fun c => Pipeline.unscopedRest spec0 c (fun b => StableHlo.after (tailOps (F := F)).flatten (Wout m c) (Proc.devRef .tc b)))
    (fun c => by rw [Pipeline.unscopedRestP_none]; iintro H; isplitr; · iempintro
                 iexact H)
    (fun c => (show _ ⊢ Pipeline.scopedRest spec0 c from by iintro ⟨-, -, HR⟩; iexact HR).trans (hin m c))
    (fun c => (hout m c).trans (by iintro H; isplitr; · iempintro
                                   iexact H))
    (htail m)
    (fun c s => ∀ b ∈ Pipeline.restRefs sig spec0, s.mem ((c.tc : Thread nD τ).loc b)
          = StableHlo.after (tailOps (F := F)).flatten (Wout m c) (Proc.devRef .tc b))
    (fun c s' => by
      iintro ⟨-, HU, HSI⟩
      unfold Pipeline.unscopedRest
      imodintro
      iapply (pointsTo_read_all (Pipeline.restRefs sig spec0) (fun b => (c.tc : Thread nD τ).loc b) (fun b => StableHlo.after (tailOps (F := F)).flatten (Wout m c) (Proc.devRef .tc b)) s')
      isplitl [HU] <;> iassumption)
    (fun s h c => ⟨(h c).1, (h c).2.2⟩)

end Cert.KernelIdeal.Hand

end
-- ==== Proof.KI.Kept.lean ====
import proofs.«421964_j23673859736135_3_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem mem_rest_arg0 : main_arg0 ∈ Pipeline.restRefs sig spec0 := by decide
theorem mem_rest_arg1 : main_arg1 ∈ Pipeline.restRefs sig spec0 := by decide
theorem mem_rest_v25 : main_v25 ∈ Pipeline.restRefs sig spec0 := by decide

theorem V0_arg0 (c : Dev nD) : V0 m c (Proc.devRef .tc main_arg0) = m ((c.tc : Thread nD τ).loc main_arg0) := by
  show StableHlo.after (List.flatten [hostOps0]) (fun b => m (c, b)) (Proc.devRef .tc main_arg0) = _
  simp only [List.flatten_cons, List.flatten_nil, List.append_nil, hostOps0]
  after_results
theorem V0_arg1 (c : Dev nD) : V0 m c (Proc.devRef .tc main_arg1) = m ((c.tc : Thread nD τ).loc main_arg1) := by
  show StableHlo.after (List.flatten [hostOps0]) (fun b => m (c, b)) (Proc.devRef .tc main_arg1) = _
  simp only [List.flatten_cons, List.flatten_nil, List.append_nil, hostOps0]
  after_results

theorem Wout_arg0 (c : Dev nD) : Wout m c (Proc.devRef .tc main_arg0) = m ((c.tc : Thread nD τ).loc main_arg0) := by
  unfold Wout
  rw [Function.update_of_ne (StableHlo.devRef_ne_of_ne (by decide)), Function.update_of_ne (StableHlo.devRef_ne_of_ne (by decide)), V0_arg0]
theorem Wout_arg1 (c : Dev nD) : Wout m c (Proc.devRef .tc main_arg1) = m ((c.tc : Thread nD τ).loc main_arg1) := by
  unfold Wout
  rw [Function.update_of_ne (StableHlo.devRef_ne_of_ne (by decide)), Function.update_of_ne (StableHlo.devRef_ne_of_ne (by decide)), V0_arg1]

theorem tail_arg0 (W : Valuation τ sig (Elt F)) :
    StableHlo.after (tailOps (F := F)).flatten W (Proc.devRef .tc main_arg0) = W (Proc.devRef .tc main_arg0) := by
  simp only [tailOps, List.flatten_cons, List.flatten_nil, List.append_nil, List.cons_append, List.nil_append, hostOps1, hostOps1_1, hostOps1_2, hostOps1_3, hostOps1_4]
  after_results_simp <;> rfl
theorem tail_arg1 (W : Valuation τ sig (Elt F)) :
    StableHlo.after (tailOps (F := F)).flatten W (Proc.devRef .tc main_arg1) = W (Proc.devRef .tc main_arg1) := by
  simp only [tailOps, List.flatten_cons, List.flatten_nil, List.append_nil, List.cons_append, List.nil_append, hostOps1, hostOps1_1, hostOps1_2, hostOps1_3, hostOps1_4]
  after_results_simp <;> rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 mem_rest_arg0).trans ((tail_arg0 _).trans (Wout_arg0 m c)),
      ((h c).2 main_arg1 mem_rest_arg1).trans ((tail_arg1 _).trans (Wout_arg1 m c))⟩) (run_main m ρ)

end Cert.KernelIdeal.Hand

end
-- ==== Proof.KI.Steps.lean ====
import proofs.«421964_j23673859736135_3_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F] [Named F]

abbrev Vec3 (F : FTy → Type) [FloatOps F] : Type := Vec F S1024x1 .f32 × Vec F S1024x1 .f32 × Vec F S1024x1 .f32

def reset : Vec3 F := (k0_pay1 (F := F), k0_pay2 (F := F), k0_pay3 (F := F))

def stepN (x0 kb : Vec F S1024x256 .bf16) (x2 lb : Vec F S1024x16 .bf16) (s : Vec3 F) : Vec3 F :=
  (k0_pay13 x0 kb s.1, k0_pay12 x0 kb x2 lb s.1 s.1 s.2.1, k0_pay11 x0 kb s.1 s.1 s.2.2)

def stepG (a0 a1 : BitVec 32) (x0 kb : Vec F S1024x256 .bf16) (x2 lb : Vec F S1024x16 .bf16) (s : Vec3 F) : Vec3 F :=
  (k0_pay7 (k0_pay16 a0 a1 (k0_pay4 x0 kb) s.1),
   k0_pay6 (k0_pay20 a0 a1 (k0_pay4 x0 kb) s.1 s.1 s.2.1) (k0_pay21 a0 a1 (k0_pay4 x0 kb) (k0_pay5 x2 lb) s.1),
   k0_pay19 a0 a1 (k0_pay4 x0 kb) s.1 s.1 s.2.2)

end Cert.KernelIdeal.Hand

end
-- ==== Proof.KI.Pieces.lean ====
import proofs.«421964_j23673859736135_3_alg».proof.Proof.KI.Frame
import proofs.«421964_j23673859736135_3_alg».proof.Proof.KI.Steps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

def kblk (i : grid0.Coords) (x1 : Vec F S8192x256 .bf16) : Vec F S1024x256 .bf16 :=
  View.ld x1 (Rect.unit (s := S8192x256) (k0_off1 i) S1024x256.size (k0_off1_inb i))

def lblk (i : grid0.Coords) (x3 : Vec F S8192x16 .bf16) : Vec F S1024x16 .bf16 :=
  View.ld x3 (Rect.unit (s := S8192x16) (k0_off2 i) S1024x16.size (k0_off2_inb i))

theorem k0_off1_at : ∀ t : Fin cfg0.N, k0_off1 (grid0.coords t) = ![1024 * (t.val % 8), 0] :=
  (by decide +kernel : ∀ t : Fin grid0.N, k0_off1 (grid0.coords t) = ![1024 * (t.val % 8), 0])

theorem k0_off2_at : ∀ t : Fin cfg0.N, k0_off2 (grid0.coords t) = ![1024 * (t.val % 8), 0] :=
  (by decide +kernel : ∀ t : Fin grid0.N, k0_off2 (grid0.coords t) = ![1024 * (t.val % 8), 0])

theorem kblk_apply (t : Fin cfg0.N) (x1 : Vec F S8192x256 .bf16) (r : Fin 1024) (d : Fin 256) :
    kblk (grid0.coords t) x1 (ValueIdx.ix2 r d) = x1 (ValueIdx.ix2 (⟨1024 * (t.val % 8) + r.val, by have := r.isLt; omega⟩ : Fin 8192) d) := by
  unfold kblk
  refine congrArg x1 (funext fun a => Fin.ext ?_)
  match a with
  | ⟨0, _⟩ =>
    show (k0_off1 (grid0.coords t)) 0 + 1 * r.val = 1024 * (t.val % 8) + r.val
    rw [k0_off1_at t]; simp
  | ⟨1, _⟩ =>
    show (k0_off1 (grid0.coords t)) 1 + 1 * d.val = d.val
    rw [k0_off1_at t]; simp

theorem lblk_apply (t : Fin cfg0.N) (x3 : Vec F S8192x16 .bf16) (r : Fin 1024) (l : Fin 16) :
    lblk (grid0.coords t) x3 (ValueIdx.ix2 r l) = x3 (ValueIdx.ix2 (⟨1024 * (t.val % 8) + r.val, by have := r.isLt; omega⟩ : Fin 8192) l) := by
  unfold lblk
  refine congrArg x3 (funext fun a => Fin.ext ?_)
  match a with
  | ⟨0, _⟩ =>
    show (k0_off2 (grid0.coords t)) 0 + 1 * r.val = 1024 * (t.val % 8) + r.val
    rw [k0_off2_at t]; simp
  | ⟨1, _⟩ =>
    show (k0_off2 (grid0.coords t)) 1 + 1 * l.val = l.val
    rw [k0_off2_at t]; simp

abbrev wI (t : Fin cfg0.N) : BitVec 32 := BitVec.ofNat 32 ((grid0.coords t) 0).val
abbrev wJ (t : Fin cfg0.N) : BitVec 32 := BitVec.ofNat 32 ((grid0.coords t) 1).val

abbrev acc3 (v : Vec5 F) : Vec3 F := (v.2.2.1, v.2.2.2.1, v.2.2.2.2)

theorem off00 : (![0, 0] : Fin 2 → Nat) = fun _ => 0 := funext fun a => by fin_cases a <;> rfl

variable (c : Dev nD) (t : Fin cfg0.N)

/-- A point's step on its four blocks: masked when `b`, the tile being on the diagonal. -/
def stB (b : Bool) (s : Vec3 F) : Vec3 F :=
  match b with
  | true => stepG (wI t) (wJ t) (iblk m c 0 t) (kblk (grid0.coords t) (iblk m c 1 t)) (iblk m c 2 t) (lblk (grid0.coords t) (iblk m c 3 t)) s
  | false => stepN (iblk m c 0 t) (kblk (grid0.coords t) (iblk m c 1 t)) (iblk m c 2 t) (lblk (grid0.coords t) (iblk m c 3 t)) s

def stepAt (s : Vec3 F) : Vec3 F := stB m c t (decide (t.val / 8 = t.val % 8)) s

theorem acc_R (b : Bool) (h1 : t.val % 8 = 0) (hd : Diag b (grid0.coords t)) (h4 : ¬t.val % 8 = 7) :
    acc3 (read5 (rAt_R m c t b h1 hd h4)) = stB m c t b (reset (F := F)) := by
  cases b <;>
   (unfold read5 acc3 stB
    dsimp only
    rw [View.read_writes_eq_canon _ _ _ (cov_R m c t _ h1 hd h4).1, View.read_writes_eq_canon _ _ _ (cov_R m c t _ h1 hd h4).2.1, View.read_writes_eq_canon _ _ _ (cov_R m c t _ h1 hd h4).2.2]
    unfold rAt_R kernelRun_R
    dsimp only
    sl_unfold_words
    simp only [View.canon_unit_zero (S := S1024x1) off00, View.canon_cons_unit_zero (S := S1024x1) off00, View.readCov_unit_zero (S := S1024x1) _ off00]
    simp only [View.readAt_eq_ld, (hs0 t).read_unread, (hs1 t).read_unread, (hs2 t).read_unread, (hs3 t).read_unread, (hs4 t).read_unread, (hs5 t).read_unread, (Memref.isWhole_whole cc0_scratch0).read_unread, (Memref.isWhole_whole cc0_scratch1).read_unread, (Memref.isWhole_whole cc0_scratch2).read_unread, View.ld_unit_zero (S := S1024x256) off00, View.ld_unit_zero (S := S1024x16) off00, View.ld_unit_zero (S := S1024x1) off00]
    rfl)

theorem acc_M (b : Bool) (h1 : ¬t.val % 8 = 0) (hd : Diag b (grid0.coords t)) (h4 : ¬t.val % 8 = 7) (xs0 xs1 xs2 : Col F) :
    acc3 (read5 (rAt_M m c t b h1 hd h4 xs0 xs1 xs2)) = stB m c t b (xs0, xs1, xs2) := by
  cases b <;>
   (unfold read5 acc3 stB
    dsimp only
    rw [View.read_writes_eq_canon _ _ _ (cov_M m c t _ h1 hd h4 xs0 xs1 xs2).1, View.read_writes_eq_canon _ _ _ (cov_M m c t _ h1 hd h4 xs0 xs1 xs2).2.1, View.read_writes_eq_canon _ _ _ (cov_M m c t _ h1 hd h4 xs0 xs1 xs2).2.2]
    unfold rAt_M kernelRun_M
    dsimp only
    sl_unfold_words
    simp only [View.canon_unit_zero (S := S1024x1) off00, View.canon_cons_unit_zero (S := S1024x1) off00, View.readCov_unit_zero (S := S1024x1) _ off00]
    simp only [View.readAt_eq_ld, (hs0 t).read_unread, (hs1 t).read_unread, (hs2 t).read_unread, (hs3 t).read_unread, (hs4 t).read_unread, (hs5 t).read_unread, (Memref.isWhole_whole cc0_scratch0).read_unread, (Memref.isWhole_whole cc0_scratch1).read_unread, (Memref.isWhole_whole cc0_scratch2).read_unread, View.ld_unit_zero (S := S1024x256) off00, View.ld_unit_zero (S := S1024x16) off00, View.ld_unit_zero (S := S1024x1) off00]
    rfl)

theorem acc_L (b : Bool) (h1 : ¬t.val % 8 = 0) (hd : Diag b (grid0.coords t)) (h4 : t.val % 8 = 7) (xs0 xs1 xs2 : Col F) :
    acc3 (read5 (rAt_L m c t b h1 hd h4 xs0 xs1 xs2)) = stB m c t b (xs0, xs1, xs2) := by
  cases b <;>
   (unfold read5 acc3 stB
    dsimp only
    refine Prod.ext ?_ (Prod.ext ?_ ?_) <;>
     (dsimp only
      first | rw [View.read_writes_eq_canon _ _ _ (cov_L m c t _ h1 hd h4 xs0 xs1 xs2).1.1] | rw [View.read_writes_eq_canon _ _ _ (cov_L m c t _ h1 hd h4 xs0 xs1 xs2).1.2.1] | rw [View.read_writes_eq_canon _ _ _ (cov_L m c t _ h1 hd h4 xs0 xs1 xs2).1.2.2]
      unfold rAt_L kernelRun_L
      dsimp only
      sl_unfold_words
      simp only [View.canon_unit_zero (S := S1024x1) off00, View.canon_cons_unit_zero (S := S1024x1) off00, View.readCov_unit_zero (S := S1024x1) _ off00]
      simp only [View.readAt_eq_ld, (hs0 t).read_unread, (hs1 t).read_unread, (hs2 t).read_unread, (hs3 t).read_unread, (hs4 t).read_unread, (hs5 t).read_unread, (Memref.isWhole_whole cc0_scratch0).read_unread, (Memref.isWhole_whole cc0_scratch1).read_unread, (Memref.isWhole_whole cc0_scratch2).read_unread, View.ld_unit_zero (S := S1024x256) off00, View.ld_unit_zero (S := S1024x16) off00, View.ld_unit_zero (S := S1024x1) off00]
      rfl))

/-- On the last column the two output buffers are stored the two sums the step leaves in the accumulators. -/
theorem out_L (b : Bool) (h1 : ¬t.val % 8 = 0) (hd : Diag b (grid0.coords t)) (h4 : t.val % 8 = 7) (xs0 xs1 xs2 : Col F) :
    (read5 (rAt_L m c t b h1 hd h4 xs0 xs1 xs2)).1 = (stB m c t b (xs0, xs1, xs2)).2.1
      ∧ (read5 (rAt_L m c t b h1 hd h4 xs0 xs1 xs2)).2.1 = (stB m c t b (xs0, xs1, xs2)).2.2 := by
  cases b <;>
   (unfold read5 stB
    dsimp only
    rw [View.read_writes_eq_canon _ _ _ (cov_L m c t _ h1 hd h4 xs0 xs1 xs2).2.1, View.read_writes_eq_canon _ _ _ (cov_L m c t _ h1 hd h4 xs0 xs1 xs2).2.2]
    unfold rAt_L kernelRun_L
    dsimp only
    sl_unfold_words
    simp only [View.canon_unit_zero (S := S1024x1) off00, View.canon_cons_unit_zero (S := S1024x1) off00, View.readCov_unit_zero (S := S1024x1) _ off00]
    simp only [View.readAt_eq_ld, (hs0 t).read_unread, (hs1 t).read_unread, (hs2 t).read_unread, (hs3 t).read_unread, (hs4 t).read_unread, (hs5 t).read_unread, (Memref.isWhole_whole cc0_scratch0).read_unread, (Memref.isWhole_whole cc0_scratch1).read_unread, (Memref.isWhole_whole cc0_scratch2).read_unread, View.ld_unit_zero (S := S1024x256) off00, View.ld_unit_zero (S := S1024x16) off00, View.ld_unit_zero (S := S1024x1) off00]
    exact ⟨rfl, rfl⟩)

/-- After any point the accumulators hold the point's step of what it started from: the reset values on the first column, else what the point before left. -/
theorem outsAt_acc : acc3 (outsAt m c t.val t.isLt) = stepAt m c t (if t.val % 8 = 0 then reset else acc3 (prevAt m c t)) := by
  unfold stepAt
  by_cases h1 : t.val % 8 = 0
  · rw [if_pos h1, outsAt_R m c t h1]; exact acc_R m c t _ h1 _ _
  · rw [if_neg h1]
    by_cases h4 : t.val % 8 = 7
    · rw [outsAt_L m c t h1 h4]; exact acc_L m c t _ h1 _ h4 _ _ _
    · rw [outsAt_M m c t h1 h4]; exact acc_M m c t _ h1 _ h4 _ _ _

theorem out_of_acc (v : Vec5 F) (s : Vec3 F) (ha : acc3 v = s) (ho : v.1 = s.2.1 ∧ v.2.1 = s.2.2) :
    v.1 = v.2.2.2.1 ∧ v.2.1 = v.2.2.2.2 := by
  subst ha; exact ho

/-- On the last column the two output buffers hold what the two sum accumulators hold. -/
theorem outsAt_out (h4 : t.val % 8 = 7) : (outsAt m c t.val t.isLt).1 = (outsAt m c t.val t.isLt).2.2.2.1
    ∧ (outsAt m c t.val t.isLt).2.1 = (outsAt m c t.val t.isLt).2.2.2.2 := by
  have h1 : ¬t.val % 8 = 0 := by omega
  rw [outsAt_L m c t h1 h4]
  exact out_of_acc _ _ (acc_L m c t _ h1 _ h4 (prevAt m c t).2.2.1 (prevAt m c t).2.2.2.1 (prevAt m c t).2.2.2.2) (out_L m c t _ h1 _ h4 (prevAt m c t).2.2.1 (prevAt m c t).2.2.2.1 (prevAt m c t).2.2.2.2)

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SE : Shape := ⟨2, ![8192, 256]⟩
abbrev SL : Shape := ⟨2, ![8192, 16]⟩
abbrev SV : Shape := ⟨1, ![8192]⟩
abbrev S0 : Shape := ⟨0, ![]⟩

def temp : EReal := Ideal.ofBits .f32 0x3D8F5C29#32

def sim (E : SE.Idx → EReal) (r c : Fin 8192) : EReal :=
  Ideal.div (∑ d : Fin 256, E (ix2 r d) * E (ix2 c d)) temp

def lab (L : IVec SL 32) (r : Fin 8192) (l : Fin 16) : EReal := (((L (ix2 r l)).toInt : ℝ) : EReal)

def labdot (L : IVec SL 32) (r c : Fin 8192) : EReal := ∑ l : Fin 16, lab L r l * lab L c l

def simOff (E : SE.Idx → EReal) (r c : Fin 8192) : EReal := if c ≠ r then sim E r c else ⊥

def rowmax (E : SE.Idx → EReal) (r : Fin 8192) : EReal :=
  (Finset.univ : Finset (Fin 8192)).fold max ⊥ (simOff E r)

def expo (E : SE.Idx → EReal) (r c : Fin 8192) : EReal := Ideal.exp (sim E r c - rowmax E r)

def negExp (E : SE.Idx → EReal) (r : Fin 8192) : EReal := ∑ c : Fin 8192, if c ≠ r then expo E r c else 0

def isPos (L : IVec SL 32) (r c : Fin 8192) : Prop := 0 < labdot L r c ∧ c ≠ r

instance (L : IVec SL 32) (r c : Fin 8192) : Decidable (isPos L r c) := by unfold isPos; exact inferInstance

def posExp (E : SE.Idx → EReal) (L : IVec SL 32) (r : Fin 8192) : EReal :=
  ∑ c : Fin 8192, if isPos L r c then expo E r c else 0

def hasPos (L : IVec SL 32) (r : Fin 8192) : BitVec 1 := if ∃ c, isPos L r c then 1#1 else 0#1

def posVec (E : SE.Idx → EReal) (L : IVec SL 32) : FVec Ideal SV .f32 := fun i => posExp E L (i 0)
def negVec (E : SE.Idx → EReal) : FVec Ideal SV .f32 := fun i => negExp E (i 0)
def hasVec (L : IVec SL 32) : IVec SV 1 := fun i => hasPos L (i 0)

def rowLoss (hp : BitVec 1) (p n : EReal) : EReal :=
  -(Ideal.log (Ideal.div (Scalar.select hp p (Ideal.ofBits .f32 0x3F800000#32)) (n + Ideal.ofBits .f32 0x322BCC77#32)))

def loss (hp : IVec SV 1) (p n : FVec Ideal SV .f32) : EReal :=
  Ideal.div
    (Ideal.ofBits .f32 0x00000000#32 + ∑ i : SV.Idx, Scalar.select (hp i) (rowLoss (hp i) (p i) (n i)) (Ideal.ofBits .f32 0x00000000#32))
    (max (Ideal.ofBits .f32 0x00000000#32 + ∑ i : SV.Idx, (FloatOps.uitofp (F := Ideal) .f32 (hp i))) (Ideal.ofBits .f32 0x3F800000#32))

end Cert.Spec

end
-- ==== Proof.Online.lean ====
import proofs.«421964_j23673859736135_3_alg».proof.Proof.Spec

noncomputable section

namespace Cert.Spec

open Idealize.ShloMosaic Idealize.ShloMosaic.ValueIdx

def col (j : Fin 8) (c : Fin 1024) : Fin 8192 := ⟨1024 * j.val + c.val, by omega⟩

def tileA (E : SE.Idx → EReal) (r : Fin 8192) (j : Fin 8) (c : Fin 1024) : EReal := simOff E r (col j c)

def tileP (L : IVec SL 32) (r : Fin 8192) (j : Fin 8) (c : Fin 1024) : EReal :=
  (if 0 < labdot L r (col j c) then (1 : EReal) else 0) * (if col j c ≠ r then (1 : EReal) else 0)

def upd (st : EReal × EReal × EReal) (a p : Fin 1024 → EReal) : EReal × EReal × EReal :=
  (max st.1 ((Finset.univ : Finset (Fin 1024)).fold max ⊥ a),
   Ideal.exp (st.1 - max st.1 ((Finset.univ : Finset (Fin 1024)).fold max ⊥ a)) * st.2.1
     + ∑ c : Fin 1024, Ideal.exp (a c - max st.1 ((Finset.univ : Finset (Fin 1024)).fold max ⊥ a)) * p c,
   Ideal.exp (st.1 - max st.1 ((Finset.univ : Finset (Fin 1024)).fold max ⊥ a)) * st.2.2
     + ∑ c : Fin 1024, Ideal.exp (a c - max st.1 ((Finset.univ : Finset (Fin 1024)).fold max ⊥ a)))

def accAt (E : SE.Idx → EReal) (L : IVec SL 32) (r : Fin 8192) : ℕ → EReal × EReal × EReal
  | 0 => (⊥, 0, 0)
  | n + 1 => if h : n < 8 then upd (accAt E L r n) (tileA E r ⟨n, h⟩) (tileP L r ⟨n, h⟩) else accAt E L r n

theorem accAt_zero (E : SE.Idx → EReal) (L : IVec SL 32) (r : Fin 8192) : accAt E L r 0 = (⊥, 0, 0) := rfl

theorem accAt_succ (E : SE.Idx → EReal) (L : IVec SL 32) (r : Fin 8192) (n : ℕ) (h : n < 8) :
    accAt E L r (n + 1) = upd (accAt E L r n) (tileA E r ⟨n, h⟩) (tileP L r ⟨n, h⟩) := by
  rw [accAt, dif_pos h]

theorem coe_finsum {ι : Type*} (s : Finset ι) (g : ι → ℝ) :
    ((∑ c ∈ s, g c : ℝ) : EReal) = ∑ c ∈ s, (g c : EReal) := by
  classical
  induction s using Finset.induction_on with
  | empty => simp
  | insert a s ha ih => rw [Finset.sum_insert ha, Finset.sum_insert ha, EReal.coe_add, ih]

def rexpOff (x : EReal) (M : ℝ) : ℝ := (Ideal.exp (x - (M : EReal))).toReal

theorem exp_sub_coe {x : EReal} (hx : x ≠ ⊤) (M : ℝ) :
    Ideal.exp (x - (M : EReal)) = ((rexpOff x M : ℝ) : EReal) := by
  unfold rexpOff
  induction x using EReal.rec with
  | bot => simp
  | coe x => rw [← EReal.coe_sub, Ideal.exp_coe, EReal.toReal_coe]
  | top => exact absurd rfl hx

theorem rexpOff_shift {x : EReal} (hx : x ≠ ⊤) (M M' : ℝ) :
    rexpOff x M' = Real.exp (M - M') * rexpOff x M := by
  unfold rexpOff
  induction x using EReal.rec with
  | bot => simp
  | coe x =>
    rw [← EReal.coe_sub, ← EReal.coe_sub, Ideal.exp_coe, Ideal.exp_coe, EReal.toReal_coe, EReal.toReal_coe,
      ← Real.exp_add]
    congr 1; ring
  | top => exact absurd rfl hx

theorem rescale_sum {ι : Type*} (S : Finset ι) (f : ι → EReal) (q : ι → ℝ) (hf : ∀ c ∈ S, f c ≠ ⊤) (M M' : ℝ) :
    Ideal.exp ((M : EReal) - (M' : EReal)) * ∑ c ∈ S, Ideal.exp (f c - (M : EReal)) * (q c : EReal)
      = ∑ c ∈ S, Ideal.exp (f c - (M' : EReal)) * (q c : EReal) := by
  have h1 : ∀ c ∈ S, Ideal.exp (f c - (M : EReal)) * (q c : EReal) = ((rexpOff (f c) M * q c : ℝ) : EReal) := by
    intro c hc; rw [exp_sub_coe (hf c hc), EReal.coe_mul]
  have h2 : ∀ c ∈ S, Ideal.exp (f c - (M' : EReal)) * (q c : EReal)
      = ((Real.exp (M - M') * (rexpOff (f c) M * q c) : ℝ) : EReal) := by
    intro c hc; rw [exp_sub_coe (hf c hc), rexpOff_shift (hf c hc) M M', ← EReal.coe_mul, mul_assoc]
  rw [Finset.sum_congr rfl h1, Finset.sum_congr rfl h2, ← coe_finsum, ← coe_finsum, ← EReal.coe_sub,
    Ideal.exp_coe, ← EReal.coe_mul, Finset.mul_sum]

theorem sup_ne_top {ι : Type*} (S : Finset ι) (f : ι → EReal) (hf : ∀ c, f c ≠ ⊤) : S.sup f ≠ ⊤ := by
  apply ne_of_lt
  rw [Finset.sup_lt_iff bot_lt_top]
  intro c _; exact lt_top_iff_ne_top.mpr (hf c)

theorem rescale_sup {ι : Type*} [DecidableEq ι] (S T : Finset ι) (f : ι → EReal) (q : ι → ℝ) (hf : ∀ c, f c ≠ ⊤) :
    Ideal.exp (S.sup f - (S ∪ T).sup f) * ∑ c ∈ S, Ideal.exp (f c - S.sup f) * (q c : EReal)
      = ∑ c ∈ S, Ideal.exp (f c - (S ∪ T).sup f) * (q c : EReal) := by
  rcases eq_or_ne (S.sup f) ⊥ with h | h
  · have hb : ∀ c ∈ S, f c = ⊥ := (Finset.sup_eq_bot_iff f S).mp h
    rw [Finset.sum_eq_zero (fun c hc => by rw [hb c hc, EReal.bot_sub, Ideal.exp_bot, zero_mul]), mul_zero,
      Finset.sum_eq_zero (fun c hc => by rw [hb c hc, EReal.bot_sub, Ideal.exp_bot, zero_mul])]
  · have hM : S.sup f = ((S.sup f).toReal : EReal) := (EReal.coe_toReal (sup_ne_top S f hf) h).symm
    have h' : (S ∪ T).sup f ≠ ⊥ := by
      intro hb; apply h; rw [Finset.sup_union] at hb
      exact le_bot_iff.mp (hb ▸ le_max_left _ _)
    have hM' : (S ∪ T).sup f = (((S ∪ T).sup f).toReal : EReal) :=
      (EReal.coe_toReal (sup_ne_top (S ∪ T) f hf) h').symm
    rw [hM, hM']
    exact rescale_sum S f q (fun c _ => hf c) _ _

theorem sum_step {ι : Type*} [DecidableEq ι] (S T : Finset ι) (hd : Disjoint S T) (f : ι → EReal) (q : ι → ℝ)
    (hf : ∀ c, f c ≠ ⊤) :
    Ideal.exp (S.sup f - (S ∪ T).sup f) * (∑ c ∈ S, Ideal.exp (f c - S.sup f) * (q c : EReal))
      + ∑ c ∈ T, Ideal.exp (f c - (S ∪ T).sup f) * (q c : EReal)
    = ∑ c ∈ S ∪ T, Ideal.exp (f c - (S ∪ T).sup f) * (q c : EReal) := by
  rw [Finset.sum_union hd, rescale_sup S T f q hf]

theorem sum_step_one {ι : Type*} [DecidableEq ι] (S T : Finset ι) (hd : Disjoint S T) (f : ι → EReal)
    (hf : ∀ c, f c ≠ ⊤) :
    Ideal.exp (S.sup f - (S ∪ T).sup f) * (∑ c ∈ S, Ideal.exp (f c - S.sup f))
      + ∑ c ∈ T, Ideal.exp (f c - (S ∪ T).sup f)
    = ∑ c ∈ S ∪ T, Ideal.exp (f c - (S ∪ T).sup f) := by
  have h := sum_step S T hd f (fun _ => 1) hf
  simpa only [EReal.coe_one, mul_one] using h

theorem temp_eq : temp = ((9395241 / 134217728 : ℝ) : EReal) := by
  unfold temp
  simp [Ideal.ofBits, Ideal.ieee, -EReal.coe_mul]; norm_num

theorem sim_real (E : SE.Idx → EReal) (hE : ∀ i, ∃ x : ℝ, E i = (x : EReal)) (r c : Fin 8192) :
    ∃ x : ℝ, sim E r c = (x : EReal) := by
  choose e he using hE
  refine ⟨(∑ d : Fin 256, e (ix2 r d) * e (ix2 c d)) * (1 / (9395241 / 134217728)), ?_⟩
  unfold sim
  rw [temp_eq, Ideal.div_coe (by norm_num)]
  simp only [he, ← EReal.coe_mul, ← coe_finsum]

theorem simOff_ne_top (E : SE.Idx → EReal) (hE : ∀ i, ∃ x : ℝ, E i = (x : EReal)) (r c : Fin 8192) :
    simOff E r c ≠ ⊤ := by
  unfold simOff
  split_ifs
  · obtain ⟨x, hx⟩ := sim_real E hE r c
    rw [hx]; exact EReal.coe_ne_top x
  · exact bot_ne_top

def colEmb (j : Fin 8) : Fin 1024 ↪ Fin 8192 :=
  ⟨col j, by
    intro a b h
    simp only [col, Fin.mk.injEq] at h
    exact Fin.ext (by omega)⟩

def tileCols (j : Fin 8) : Finset (Fin 8192) := Finset.univ.map (colEmb j)

def firstCols (n : ℕ) : Finset (Fin 8192) := Finset.univ.filter (fun c => c.val < 1024 * n)

theorem firstCols_zero : firstCols 0 = ∅ := by
  unfold firstCols; simp

theorem firstCols_eight : firstCols 8 = Finset.univ := by
  unfold firstCols
  apply Finset.filter_true_of_mem
  intro c _; omega

theorem mem_tileCols (j : Fin 8) (c : Fin 8192) :
    c ∈ tileCols j ↔ 1024 * j.val ≤ c.val ∧ c.val < 1024 * (j.val + 1) := by
  unfold tileCols
  simp only [Finset.mem_map, Finset.mem_univ, true_and]
  constructor
  · rintro ⟨k, rfl⟩
    show 1024 * j.val ≤ (col j k).val ∧ (col j k).val < 1024 * (j.val + 1)
    simp only [col]; omega
  · rintro ⟨h1, h2⟩
    refine ⟨⟨c.val - 1024 * j.val, by omega⟩, ?_⟩
    show col j _ = c
    apply Fin.ext
    simp only [col]; omega

theorem firstCols_succ (n : ℕ) (h : n < 8) : firstCols (n + 1) = firstCols n ∪ tileCols ⟨n, h⟩ := by
  ext c
  rw [Finset.mem_union, mem_tileCols]
  unfold firstCols
  simp only [Finset.mem_filter, Finset.mem_univ, true_and, Fin.val_mk]
  omega

theorem firstCols_disjoint (n : ℕ) (h : n < 8) : Disjoint (firstCols n) (tileCols ⟨n, h⟩) := by
  rw [Finset.disjoint_left]
  intro c hc hc'
  rw [mem_tileCols, Fin.val_mk] at hc'
  unfold firstCols at hc
  simp only [Finset.mem_filter, Finset.mem_univ, true_and] at hc
  omega

theorem tile_fold (f : Fin 8192 → EReal) (j : Fin 8) :
    (Finset.univ : Finset (Fin 1024)).fold max ⊥ (fun c => f (col j c)) = (tileCols j).sup f := by
  unfold tileCols
  rw [Finset.sup_map]
  rfl

theorem tile_sum (g : Fin 8192 → EReal) (j : Fin 8) :
    ∑ c : Fin 1024, g (col j c) = ∑ x ∈ tileCols j, g x := by
  unfold tileCols
  rw [Finset.sum_map]
  rfl

def wt (L : IVec SL 32) (r c : Fin 8192) : ℝ :=
  (if 0 < labdot L r c then (1 : ℝ) else 0) * (if c ≠ r then (1 : ℝ) else 0)

theorem tileP_eq (L : IVec SL 32) (r : Fin 8192) (j : Fin 8) (c : Fin 1024) :
    tileP L r j c = ((wt L r (col j c) : ℝ) : EReal) := by
  unfold tileP wt
  split_ifs <;> simp

def closed (f : Fin 8192 → EReal) (q : Fin 8192 → ℝ) (S : Finset (Fin 8192)) : EReal × EReal × EReal :=
  (S.sup f, ∑ c ∈ S, Ideal.exp (f c - S.sup f) * (q c : EReal), ∑ c ∈ S, Ideal.exp (f c - S.sup f))

theorem upd_closed (f : Fin 8192 → EReal) (q : Fin 8192 → ℝ) (hf : ∀ c, f c ≠ ⊤) (S : Finset (Fin 8192)) (j : Fin 8)
    (hd : Disjoint S (tileCols j)) :
    upd (closed f q S) (fun c => f (col j c)) (fun c => ((q (col j c) : ℝ) : EReal)) = closed f q (S ∪ tileCols j) := by
  have hmax : max (S.sup f) ((Finset.univ : Finset (Fin 1024)).fold max ⊥ (fun c => f (col j c)))
      = (S ∪ tileCols j).sup f := by
    rw [tile_fold, Finset.sup_union]
  unfold upd closed
  simp only [hmax]
  rw [tile_sum (fun x => Ideal.exp (f x - (S ∪ tileCols j).sup f) * ((q x : ℝ) : EReal)) j,
    tile_sum (fun x => Ideal.exp (f x - (S ∪ tileCols j).sup f)) j,
    sum_step S (tileCols j) hd f q hf, sum_step_one S (tileCols j) hd f hf]

theorem accAt_closed (E : SE.Idx → EReal) (L : IVec SL 32) (hE : ∀ i, ∃ x : ℝ, E i = (x : EReal)) (r : Fin 8192)
    (n : ℕ) (hn : n ≤ 8) : accAt E L r n = closed (simOff E r) (wt L r) (firstCols n) := by
  induction n with
  | zero => rw [accAt_zero, firstCols_zero]; simp [closed]
  | succ n ih =>
    have h : n < 8 := by omega
    rw [accAt_succ E L r n h, ih (by omega), firstCols_succ n h]
    have hP : tileP L r ⟨n, h⟩ = fun c => ((wt L r (col ⟨n, h⟩ c) : ℝ) : EReal) := by
      funext c; exact tileP_eq L r ⟨n, h⟩ c
    have hA : tileA E r ⟨n, h⟩ = fun c => simOff E r (col ⟨n, h⟩ c) := rfl
    rw [hP, hA]
    exact upd_closed (simOff E r) (wt L r) (simOff_ne_top E hE r) (firstCols n) ⟨n, h⟩ (firstCols_disjoint n h)

theorem accAt_eight (E : SE.Idx → EReal) (L : IVec SL 32) (hE : ∀ i, ∃ x : ℝ, E i = (x : EReal)) (r : Fin 8192) :
    accAt E L r 8 = (rowmax E r, posExp E L r, negExp E r) := by
  rw [accAt_closed E L hE r 8 le_rfl, firstCols_eight]
  have hm : (Finset.univ : Finset (Fin 8192)).sup (simOff E r) = rowmax E r := rfl
  unfold closed posExp negExp
  rw [hm]
  rw [Prod.mk.injEq, Prod.mk.injEq]
  refine ⟨rfl, ?_, ?_⟩
  · apply Finset.sum_congr rfl
    intro c _
    unfold wt isPos simOff expo
    by_cases hc : c = r
    · simp [hc]
    · by_cases hl : 0 < labdot L r c <;> simp [hc, hl]
  · apply Finset.sum_congr rfl
    intro c _
    unfold simOff expo
    by_cases hc : c = r
    · simp [hc]
    · simp [hc]

end Cert.Spec

end
-- ==== Proof.KI.StepValue.lean ====
import proofs.«421964_j23673859736135_3_alg».proof.Proof.KI.Steps
import proofs.«421964_j23673859736135_3_alg».proof.Proof.Online
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (y : Fin a) (u : Fin 1) : shapeCast ⟨2, ![a, 1]⟩ x h (ix2 y u) = x (ix1 y) :=
  shapeCast_apply x h _ _ (by
    have hu : u.val = 0 := by omega
    rw [Shape.rowMajor_val_two, Shape.rowMajor_val_one]
    show y.val = y.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (y : Fin a) (c : Fin b) : broadcastTo ⟨2, ![a, b]⟩ v h (ix2 y c) = v (ix2 y (0 : Fin 1)) := by
  refine broadcastTo_apply v h (ix2 y c) (ix2 y (0 : Fin 1)) fun ax => ?_
  match ax with
  | ⟨0, _⟩ =>
    show y.val = if a = 1 then 0 else y.val
    split
    · have := y.isLt; omega
    · rfl
  | ⟨1, _⟩ => rfl

end Layout

theorem lhs_emb_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_emb_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_emb_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_emb_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

theorem dot_emb_apply (l : FVec Ideal S1024x256 .bf16) (r : FVec Ideal S256x1024 .bf16) (y c : Fin 1024) :
    matmul dot_S1024x256_S256x1024_S1024x1024_1_0_0_1_n_n none l r (constant (F := Ideal) S1024x1024 .f32 0x00000000#32) (ix2 y c)
      = ∑ k : Fin 256, l (ix2 y k) * r (ix2 k c) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 y c) ((contrEquiv1 dot_S1024x256_S256x1024_S1024x1024_1_0_0_1_n_n 256 rfl rfl).symm k) = ix2 y k := funext fun a => Fin.ext (by
    match a with
    | ⟨0, _⟩ => exact lhs_emb_0 _ _
    | ⟨1, _⟩ => exact (lhs_emb_1 _ _).trans hk)
  have er : dot_S1024x256_S256x1024_S1024x1024_1_0_0_1_n_n.rhsIdx (ix2 y c) ((contrEquiv1 dot_S1024x256_S256x1024_S1024x1024_1_0_0_1_n_n 256 rfl rfl).symm k) = ix2 k c := funext fun a => Fin.ext (by
    match a with
    | ⟨0, _⟩ => exact (rhs_emb_0 _ _).trans hk
    | ⟨1, _⟩ => exact rhs_emb_1 _ _)
  rw [el, er]

theorem lhs_lab_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_lab_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_lab_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_lab_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

theorem dot_lab_apply (l : FVec Ideal S1024x16 .bf16) (r : FVec Ideal S16x1024 .bf16) (y c : Fin 1024) :
    matmul dot_S1024x16_S16x1024_S1024x1024_1_0_0_1_n_n none l r (constant (F := Ideal) S1024x1024 .f32 0x00000000#32) (ix2 y c)
      = ∑ k : Fin 16, l (ix2 y k) * r (ix2 k c) := by
  simp only [matmul]
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 y c) ((contrEquiv1 dot_S1024x16_S16x1024_S1024x1024_1_0_0_1_n_n 16 rfl rfl).symm k) = ix2 y k := funext fun a => Fin.ext (by
    match a with
    | ⟨0, _⟩ => exact lhs_lab_0 _ _
    | ⟨1, _⟩ => exact (lhs_lab_1 _ _).trans hk)
  have er : dot_S1024x16_S16x1024_S1024x1024_1_0_0_1_n_n.rhsIdx (ix2 y c) ((contrEquiv1 dot_S1024x16_S16x1024_S1024x1024_1_0_0_1_n_n 16 rfl rfl).symm k) = ix2 k c := funext fun a => Fin.ext (by
    match a with
    | ⟨0, _⟩ => exact (rhs_lab_0 _ _).trans hk
    | ⟨1, _⟩ => exact rhs_lab_1 _ _)
  rw [el, er]

theorem inv_temp_eq :
    Named.named (F := Ideal) κ "inv_temp" (φ := .f32) 0x41649249#32 = ((134217728 / 9395241 : ℝ) : EReal) :=
  IdealRules.named_const.ideal_named_scalar _ _ _ _ rfl

theorem neg_big_eq : Named.named (F := Ideal) κ "neg_big" (φ := .f32) 0xF149F2CA#32 = (⊥ : EReal) :=
  IdealRules.named_const.ideal_named_scalar _ _ _ _ rfl

theorem div_temp (x : EReal) : Ideal.div x Cert.Spec.temp = x * ((134217728 / 9395241 : ℝ) : EReal) := by
  rw [Cert.Spec.temp_eq, Ideal.div_coe (by norm_num)]
  congr 2; norm_num

theorem pay4_apply (x0 kb : Vec Ideal S1024x256 .bf16) (y c : Fin 1024) :
    k0_pay4 (F := Ideal) x0 kb (ix2 y c) = Ideal.div (∑ d : Fin 256, x0 (ix2 y d) * kb (ix2 c d)) Cert.Spec.temp := by
  rw [div_temp]
  unfold k0_pay4
  show matmul dot_S1024x256_S256x1024_S1024x1024_1_0_0_1_n_n none (shapeCast S1024x256 x0 shapeCasts_S1024x256_S1024x256)
      (transpose S256x1024 [1, 0] (shapeCast S1024x256 kb shapeCasts_S1024x256_S1024x256) transposes_S1024x256_p1_0_S256x1024)
      (constant (F := Ideal) S1024x1024 .f32 0x00000000#32) (ix2 y c)
    * Named.named (F := Ideal) κ "inv_temp" (φ := .f32) 0x41649249#32 = _
  rw [dot_emb_apply, inv_temp_eq, shapeCast_self, shapeCast_self]
  congr 1
  refine Finset.sum_congr rfl fun d _ => ?_
  rw [transpose_ix2_apply]

theorem pay5_apply (x2 lb : Vec Ideal S1024x16 .bf16) (y c : Fin 1024) :
    k0_pay5 (F := Ideal) x2 lb (ix2 y c) = ∑ l : Fin 16, x2 (ix2 y l) * lb (ix2 c l) := by
  unfold k0_pay5
  show matmul dot_S1024x16_S16x1024_S1024x1024_1_0_0_1_n_n none (shapeCast S1024x16 x2 shapeCasts_S1024x16_S1024x16)
      (transpose S16x1024 [1, 0] (shapeCast S1024x16 lb shapeCasts_S1024x16_S1024x16) transposes_S1024x16_p1_0_S16x1024)
      (constant (F := Ideal) S1024x1024 .f32 0x00000000#32) (ix2 y c) = _
  rw [dot_lab_apply, shapeCast_self, shapeCast_self]
  refine Finset.sum_congr rfl fun l _ => ?_
  rw [transpose_ix2_apply]

theorem rowword (a : Fin 8) (y : Fin 1024) :
    IntOp.addi (Scalar.muli (BitVec.ofNat 32 a.val) 1024#32) (BitVec.ofNat 32 y.val) = BitVec.ofNat 32 (1024 * a.val + y.val) := by
  apply BitVec.eq_of_toNat_eq
  simp only [IntOp.addi, Scalar.muli, IntOp.muli, BitVec.toNat_add, BitVec.toNat_mul, BitVec.toNat_ofNat]
  have := a.isLt; have := y.isLt
  omega

theorem cmpi_ne_ofNat (n m : ℕ) (hn : n < 2 ^ 32) (hm : m < 2 ^ 32) :
    IntOp.cmpi .ne (BitVec.ofNat 32 n) (BitVec.ofNat 32 m) = if n ≠ m then 1#1 else 0#1 := by
  have hiff : BitVec.ofNat 32 n = BitVec.ofNat 32 m ↔ n = m := by
    constructor
    · intro e
      have := congrArg BitVec.toNat e
      simp only [BitVec.toNat_ofNat] at this
      omega
    · intro e; rw [e]
  show BitVec.ofBool (BitVec.ofNat 32 n != BitVec.ofNat 32 m) = _
  by_cases h : n = m
  · rw [if_neg (not_not.mpr h), bne_eq_false_iff_eq.mpr (hiff.mpr h)]; rfl
  · rw [if_pos h, bne_iff_ne.mpr (fun e => h (hiff.mp e))]; rfl

theorem pay14_apply (i j : Fin 8) (y c : Fin 1024) :
    k0_pay14 (BitVec.ofNat 32 i.val) (BitVec.ofNat 32 j.val) (ix2 y c)
      = if Cert.Spec.col j c ≠ Cert.Spec.col i y then 1#1 else 0#1 := by
  have := i.isLt; have := j.isLt; have := y.isLt; have := c.isLt
  unfold k0_pay14
  show IntOp.cmpi .ne
      (IntOp.addi (Scalar.muli (BitVec.ofNat 32 i.val) 1024#32) (iota .tc S1024x1024 32 [0] iota_S1024x1024_d0_w32 (ix2 y c)))
      (IntOp.addi (Scalar.muli (BitVec.ofNat 32 j.val) 1024#32) (iota .tc S1024x1024 32 [1] iota_S1024x1024_d1_w32 (ix2 y c))) = _
  rw [iota_single_apply, iota_single_apply]
  show IntOp.cmpi .ne (IntOp.addi _ (BitVec.ofNat 32 y.val)) (IntOp.addi _ (BitVec.ofNat 32 c.val)) = _
  rw [rowword, rowword, cmpi_ne_ofNat _ _ (by omega) (by omega)]
  by_cases h : Cert.Spec.col j c = Cert.Spec.col i y
  · have h' : 1024 * i.val + y.val = 1024 * j.val + c.val := by
      have := congrArg Fin.val h; simp only [Cert.Spec.col] at this; omega
    rw [if_neg (not_not.mpr h), if_neg (not_not.mpr h')]
  · have h' : 1024 * i.val + y.val ≠ 1024 * j.val + c.val := fun e => h (Fin.ext (by simp only [Cert.Spec.col]; omega))
    rw [if_pos h, if_pos h']

theorem pay15_apply (i j : Fin 8) (A : FVec Ideal S1024x1024 .f32) (y c : Fin 1024) :
    k0_pay15 (F := Ideal) (BitVec.ofNat 32 i.val) (BitVec.ofNat 32 j.val) A (ix2 y c)
      = if Cert.Spec.col j c ≠ Cert.Spec.col i y then A (ix2 y c) else ⊥ := by
  unfold k0_pay15
  show Scalar.select (k0_pay14 (BitVec.ofNat 32 i.val) (BitVec.ofNat 32 j.val) (ix2 y c)) (A (ix2 y c))
      (Named.named (F := Ideal) κ "neg_big" (φ := .f32) 0xF149F2CA#32) = _
  rw [pay14_apply, neg_big_eq]
  split_ifs with h
  · exact select_one _ _
  · exact select_zero _ _

theorem maskf_apply (i j : Fin 8) (y c : Fin 1024) :
    FloatOps.sitofp (F := Ideal) .f32 ((k0_pay14 (BitVec.ofNat 32 i.val) (BitVec.ofNat 32 j.val) (ix2 y c)).setWidth 32)
      = if Cert.Spec.col j c ≠ Cert.Spec.col i y then (1 : EReal) else 0 := by
  rw [pay14_apply]
  show (((BitVec.setWidth 32 (if Cert.Spec.col j c ≠ Cert.Spec.col i y then 1#1 else 0#1)).toInt : ℝ) : EReal) = _
  split_ifs with h
  · simp
  · simp

theorem ofBits_neg_inf_f32 : Ideal.ofBits .f32 0xFF800000#32 = (⊥ : EReal) := by simp [Ideal.ofBits, Ideal.ieee]
theorem ofBits_one_f32 : Ideal.ofBits .f32 0x3F800000#32 = (1 : EReal) := by
  simp [Ideal.ofBits, Ideal.ieee, -EReal.coe_mul]; norm_num

theorem rowsum_apply (A : FVec Ideal S1024x1024 .f32) (h : S1024x1024.Reduces [1] S1024) (hφ : FKind.Formats .f32)
    (hacc : (0x00000000#32 : BitVec 32) = FKind.add.neutral .f32 hφ) (hc : S1024.ShapeCasts S1024x1) (y : Fin 1024) :
    shapeCast S1024x1 (multiReduction (F := Ideal) .add [1] S1024 A 0x00000000#32 h hφ hacc) hc (ix2 y (0 : Fin 1))
      = ∑ c : Fin 1024, A (ix2 y c) := by
  refine (shapeCast_a_a1_apply _ hc y 0).trans ?_
  refine (Ideal.multiReduction_add_single A _ h hφ hacc (ix1 y)).trans ?_
  show ∑ c : Fin 1024, A (h.lift (ix1 y) c) = _
  refine Finset.sum_congr rfl fun c _ => congrArg A ?_
  exact funext fun a => Fin.ext (by match a with | ⟨0, _⟩ => rfl | ⟨1, _⟩ => rfl)

theorem rowfold_apply (A : FVec Ideal S1024x1024 .f32) (h : S1024x1024.Reduces [1] S1024) (hφ : FKind.Formats .f32)
    (hacc : (0xFF800000#32 : BitVec 32) = FKind.maximumf.neutral .f32 hφ) (hc : S1024.ShapeCasts S1024x1) (y : Fin 1024) :
    shapeCast S1024x1 (multiReduction (F := Ideal) .maximumf [1] S1024 A 0xFF800000#32 h hφ hacc) hc (ix2 y (0 : Fin 1))
      = (Finset.univ : Finset (Fin 1024)).fold max ⊥ (fun c => A (ix2 y c)) := by
  refine (shapeCast_a_a1_apply _ hc y 0).trans ?_
  refine (Ideal.multiReduction_maximumf_single A _ h hφ hacc (ix1 y)).trans ?_
  have hf : (A ∘ h.lift (ix1 y)) = fun c : Fin 1024 => A (ix2 y c) :=
    funext fun c => congrArg A (funext fun a => Fin.ext (by match a with | ⟨0, _⟩ => rfl | ⟨1, _⟩ => rfl))
  show (Finset.univ : Finset (Fin 1024)).fold max (Ideal.ofBits .f32 0xFF800000#32) (A ∘ h.lift (ix1 y)) = _
  rw [ofBits_neg_inf_f32, hf]
  rfl

theorem pos_ind (x : EReal) :
    Scalar.select (Ideal.cmp .ogt x (Ideal.ofBits .f32 0x00000000#32)) (Ideal.ofBits .f32 0x3F800000#32)
        (Ideal.ofBits .f32 0x00000000#32)
      = if 0 < x then (1 : EReal) else 0 := by
  rw [Ideal.ofBits_zero_f32, ofBits_one_f32]
  unfold Ideal.cmp
  by_cases h : (0 : EReal) < x
  · simp [h, Scalar.select]
  · simp [h, Scalar.select]

theorem coladd_apply (u : FVec Ideal S1024x1 .f32) (T : FVec Ideal S1024x1024 .f32) (h : S1024x1024.Reduces [1] S1024)
    (hφ : FKind.Formats .f32) (hacc : (0x00000000#32 : BitVec 32) = FKind.add.neutral .f32 hφ) (hc : S1024.ShapeCasts S1024x1)
    (hs : S1024x1.ShapeCasts S1024x1) (y : Fin 1024) :
    shapeCast S1024x1 (addf u (shapeCast S1024x1 (multiReduction (F := Ideal) .add [1] S1024 T 0x00000000#32 h hφ hacc) hc)) hs
        (ix2 y (0 : Fin 1))
      = u (ix2 y 0) + ∑ c : Fin 1024, T (ix2 y c) := by
  refine (congrFun (shapeCast_self _ hs) (ix2 y (0 : Fin 1))).trans ?_
  exact congrArg (fun t => u (ix2 y 0) + t) (rowsum_apply T h hφ hacc hc y)

theorem colmax_apply (u : FVec Ideal S1024x1 .f32) (T : FVec Ideal S1024x1024 .f32) (h : S1024x1024.Reduces [1] S1024)
    (hφ : FKind.Formats .f32) (hacc : (0xFF800000#32 : BitVec 32) = FKind.maximumf.neutral .f32 hφ) (hc : S1024.ShapeCasts S1024x1)
    (y : Fin 1024) :
    maximumf u (shapeCast S1024x1 (multiReduction (F := Ideal) .maximumf [1] S1024 T 0xFF800000#32 h hφ hacc) hc) (ix2 y (0 : Fin 1))
      = max (u (ix2 y 0)) ((Finset.univ : Finset (Fin 1024)).fold max ⊥ (fun c => T (ix2 y c))) :=
  congrArg (fun t => max (u (ix2 y 0)) t) (rowfold_apply T h hφ hacc hc y)

theorem pay7_eq (v : FVec Ideal S1024x1 .f32) : k0_pay7 (F := Ideal) v = v := by
  unfold k0_pay7; exact shapeCast_self v _

theorem pay16_apply (a0 a1 : BitVec 32) (A : FVec Ideal S1024x1024 .f32) (s0 : Vec Ideal S1024x1 .f32) (y : Fin 1024) :
    k0_pay16 (F := Ideal) a0 a1 A s0 (ix2 y 0)
      = max (s0 (ix2 y 0)) ((Finset.univ : Finset (Fin 1024)).fold max ⊥ (fun c => k0_pay15 (F := Ideal) a0 a1 A (ix2 y c))) := by
  unfold k0_pay16
  exact colmax_apply _ _ _ _ _ _ y

theorem pay17_apply (a0 a1 : BitVec 32) (A : FVec Ideal S1024x1024 .f32) (s0 s0' : Vec Ideal S1024x1 .f32) (y : Fin 1024) :
    k0_pay17 (F := Ideal) a0 a1 A s0 s0' (ix2 y 0)
      = Ideal.exp (s0' (ix2 y 0) - k0_pay16 (F := Ideal) a0 a1 A s0 (ix2 y 0)) := rfl

theorem pay18_apply (a0 a1 : BitVec 32) (A : FVec Ideal S1024x1024 .f32) (s0 : Vec Ideal S1024x1 .f32) (y c : Fin 1024) :
    k0_pay18 (F := Ideal) a0 a1 A s0 (ix2 y c)
      = Ideal.exp (k0_pay15 (F := Ideal) a0 a1 A (ix2 y c) - k0_pay16 (F := Ideal) a0 a1 A s0 (ix2 y 0)) := by
  unfold k0_pay18
  exact congrArg (fun t => Ideal.exp (k0_pay15 (F := Ideal) a0 a1 A (ix2 y c) - t))
    (broadcastTo_a1_ab_apply (k0_pay16 (F := Ideal) a0 a1 A s0) _ y c)

theorem pay19_apply (a0 a1 : BitVec 32) (A : FVec Ideal S1024x1024 .f32) (s0 s0' s2 : Vec Ideal S1024x1 .f32) (y : Fin 1024) :
    k0_pay19 (F := Ideal) a0 a1 A s0 s0' s2 (ix2 y 0)
      = k0_pay17 (F := Ideal) a0 a1 A s0 s0' (ix2 y 0) * s2 (ix2 y 0)
        + ∑ c : Fin 1024, k0_pay18 (F := Ideal) a0 a1 A s0 (ix2 y c) := by
  unfold k0_pay19
  exact coladd_apply _ _ _ _ _ _ _ y

theorem pay20_apply (a0 a1 : BitVec 32) (A : FVec Ideal S1024x1024 .f32) (s0 s0' s1 : Vec Ideal S1024x1 .f32) (y : Fin 1024) :
    k0_pay20 (F := Ideal) a0 a1 A s0 s0' s1 (ix2 y 0)
      = k0_pay17 (F := Ideal) a0 a1 A s0 s0' (ix2 y 0) * s1 (ix2 y 0) := rfl

theorem pay21_apply (i j : Fin 8) (A B : FVec Ideal S1024x1024 .f32) (s0 : Vec Ideal S1024x1 .f32) (y c : Fin 1024) :
    k0_pay21 (F := Ideal) (BitVec.ofNat 32 i.val) (BitVec.ofNat 32 j.val) A B s0 (ix2 y c)
      = k0_pay18 (F := Ideal) (BitVec.ofNat 32 i.val) (BitVec.ofNat 32 j.val) A s0 (ix2 y c)
        * ((if 0 < B (ix2 y c) then (1 : EReal) else 0) * (if Cert.Spec.col j c ≠ Cert.Spec.col i y then (1 : EReal) else 0)) := by
  unfold k0_pay21
  exact congrArg (fun t => k0_pay18 (F := Ideal) (BitVec.ofNat 32 i.val) (BitVec.ofNat 32 j.val) A s0 (ix2 y c) * t)
    (congrArg₂ (fun p q : EReal => p * q) (pos_ind (B (ix2 y c))) (maskf_apply i j y c))

theorem pay6_apply (u : FVec Ideal S1024x1 .f32) (T : FVec Ideal S1024x1024 .f32) (y : Fin 1024) :
    k0_pay6 (F := Ideal) u T (ix2 y 0) = u (ix2 y 0) + ∑ c : Fin 1024, T (ix2 y c) := by
  unfold k0_pay6
  exact coladd_apply _ _ _ _ _ _ _ y

theorem pay8_apply (x0 kb : Vec Ideal S1024x256 .bf16) (s0 : Vec Ideal S1024x1 .f32) (y : Fin 1024) :
    k0_pay8 (F := Ideal) x0 kb s0 (ix2 y 0)
      = max (s0 (ix2 y 0)) ((Finset.univ : Finset (Fin 1024)).fold max ⊥ (fun c => k0_pay4 (F := Ideal) x0 kb (ix2 y c))) := by
  unfold k0_pay8
  exact colmax_apply _ _ _ _ _ _ y

theorem pay9_apply (x0 kb : Vec Ideal S1024x256 .bf16) (s0 s0' : Vec Ideal S1024x1 .f32) (y : Fin 1024) :
    k0_pay9 (F := Ideal) x0 kb s0 s0' (ix2 y 0)
      = Ideal.exp (s0' (ix2 y 0) - k0_pay8 (F := Ideal) x0 kb s0 (ix2 y 0)) := rfl

theorem pay10_apply (x0 kb : Vec Ideal S1024x256 .bf16) (s0 : Vec Ideal S1024x1 .f32) (y c : Fin 1024) :
    k0_pay10 (F := Ideal) x0 kb s0 (ix2 y c)
      = Ideal.exp (k0_pay4 (F := Ideal) x0 kb (ix2 y c) - k0_pay8 (F := Ideal) x0 kb s0 (ix2 y 0)) := by
  unfold k0_pay10
  exact congrArg (fun t => Ideal.exp (k0_pay4 (F := Ideal) x0 kb (ix2 y c) - t))
    (broadcastTo_a1_ab_apply (k0_pay8 (F := Ideal) x0 kb s0) _ y c)

theorem pay11_apply (x0 kb : Vec Ideal S1024x256 .bf16) (s0 s0' s2 : Vec Ideal S1024x1 .f32) (y : Fin 1024) :
    k0_pay11 (F := Ideal) x0 kb s0 s0' s2 (ix2 y 0)
      = k0_pay9 (F := Ideal) x0 kb s0 s0' (ix2 y 0) * s2 (ix2 y 0) + ∑ c : Fin 1024, k0_pay10 (F := Ideal) x0 kb s0 (ix2 y c) := by
  unfold k0_pay11
  exact coladd_apply _ _ _ _ _ _ _ y

theorem pay12_apply (x0 kb : Vec Ideal S1024x256 .bf16) (x2 lb : Vec Ideal S1024x16 .bf16) (s0 s0' s1 : Vec Ideal S1024x1 .f32)
    (y : Fin 1024) :
    k0_pay12 (F := Ideal) x0 kb x2 lb s0 s0' s1 (ix2 y 0)
      = k0_pay9 (F := Ideal) x0 kb s0 s0' (ix2 y 0) * s1 (ix2 y 0)
        + ∑ c : Fin 1024, k0_pay10 (F := Ideal) x0 kb s0 (ix2 y c) * (if 0 < k0_pay5 (F := Ideal) x2 lb (ix2 y c) then (1 : EReal) else 0) := by
  unfold k0_pay12
  refine (coladd_apply _ _ _ _ _ _ _ y).trans ?_
  exact congrArg (fun t => k0_pay9 (F := Ideal) x0 kb s0 s0' (ix2 y 0) * s1 (ix2 y 0) + t)
    (Finset.sum_congr rfl fun c _ =>
      congrArg (fun t => k0_pay10 (F := Ideal) x0 kb s0 (ix2 y c) * t) (pos_ind (k0_pay5 (F := Ideal) x2 lb (ix2 y c))))

theorem pay13_eq (x0 kb : Vec Ideal S1024x256 .bf16) (s0 : Vec Ideal S1024x1 .f32) :
    k0_pay13 (F := Ideal) x0 kb s0 = k0_pay8 (F := Ideal) x0 kb s0 := by
  unfold k0_pay13; exact shapeCast_self _ _

theorem reset_row (y : Fin 1024) :
    ((reset (F := Ideal)).1 (ix2 y 0), (reset (F := Ideal)).2.1 (ix2 y 0), (reset (F := Ideal)).2.2 (ix2 y 0))
      = ((⊥ : EReal), (0 : EReal), (0 : EReal)) := by
  have h1 : (reset (F := Ideal)).1 (ix2 y 0) = (⊥ : EReal) := by
    show k0_pay1 (F := Ideal) (ix2 y 0) = _
    unfold k0_pay1
    refine (congrFun (shapeCast_self _ _) (ix2 y (0 : Fin 1))).trans ?_
    exact neg_big_eq
  have h2 : (reset (F := Ideal)).2.1 (ix2 y 0) = (0 : EReal) := by
    show k0_pay2 (F := Ideal) (ix2 y 0) = _
    unfold k0_pay2
    refine (congrFun (shapeCast_self _ _) (ix2 y (0 : Fin 1))).trans ?_
    exact Ideal.ofBits_zero_f32
  have h3 : (reset (F := Ideal)).2.2 (ix2 y 0) = (0 : EReal) := by
    show k0_pay3 (F := Ideal) (ix2 y 0) = _
    unfold k0_pay3
    refine (congrFun (shapeCast_self _ _) (ix2 y (0 : Fin 1))).trans ?_
    exact Ideal.ofBits_zero_f32
  rw [h1, h2, h3]

section Steps
variable (E : Cert.Spec.SE.Idx → EReal) (L : IVec Cert.Spec.SL 32) (i j : Fin 8)
  (x0 kb : Vec Ideal S1024x256 .bf16) (x2 lb : Vec Ideal S1024x16 .bf16) (s : Vec3 Ideal)

/-- The row's running maximum once the tile is folded in. -/
abbrev newMax (y : Fin 1024) : EReal :=
  max (s.1 (ix2 y 0)) ((Finset.univ : Finset (Fin 1024)).fold max ⊥ (Cert.Spec.tileA E (Cert.Spec.col i y) j))

theorem pay4_sim (hx0 : ∀ (y : Fin 1024) (d : Fin 256), x0 (ix2 y d) = E (ix2 (Cert.Spec.col i y) d))
    (hkb : ∀ (c : Fin 1024) (d : Fin 256), kb (ix2 c d) = E (ix2 (Cert.Spec.col j c) d)) (y c : Fin 1024) :
    k0_pay4 (F := Ideal) x0 kb (ix2 y c) = Cert.Spec.sim E (Cert.Spec.col i y) (Cert.Spec.col j c) := by
  rw [pay4_apply]
  unfold Cert.Spec.sim
  exact congrArg (fun t => Ideal.div t Cert.Spec.temp) (Finset.sum_congr rfl fun d _ => by rw [hx0 y d, hkb c d])

theorem pay5_labdot (hx2 : ∀ (y : Fin 1024) (l : Fin 16), x2 (ix2 y l) = Cert.Spec.lab L (Cert.Spec.col i y) l)
    (hlb : ∀ (c : Fin 1024) (l : Fin 16), lb (ix2 c l) = Cert.Spec.lab L (Cert.Spec.col j c) l) (y c : Fin 1024) :
    k0_pay5 (F := Ideal) x2 lb (ix2 y c) = Cert.Spec.labdot L (Cert.Spec.col i y) (Cert.Spec.col j c) := by
  rw [pay5_apply]
  unfold Cert.Spec.labdot
  exact Finset.sum_congr rfl fun l _ => by rw [hx2 y l, hlb c l]

theorem col_ne (hij : i ≠ j) (y c : Fin 1024) : Cert.Spec.col j c ≠ Cert.Spec.col i y := by
  intro h
  apply hij
  have := congrArg Fin.val h
  simp only [Cert.Spec.col] at this
  exact Fin.ext (by omega)

theorem stepG_row (hx0 : ∀ (y : Fin 1024) (d : Fin 256), x0 (ix2 y d) = E (ix2 (Cert.Spec.col i y) d))
    (hkb : ∀ (c : Fin 1024) (d : Fin 256), kb (ix2 c d) = E (ix2 (Cert.Spec.col j c) d))
    (hx2 : ∀ (y : Fin 1024) (l : Fin 16), x2 (ix2 y l) = Cert.Spec.lab L (Cert.Spec.col i y) l)
    (hlb : ∀ (c : Fin 1024) (l : Fin 16), lb (ix2 c l) = Cert.Spec.lab L (Cert.Spec.col j c) l) (y : Fin 1024) :
    ((stepG (BitVec.ofNat 32 i.val) (BitVec.ofNat 32 j.val) x0 kb x2 lb s).1 (ix2 y 0),
      (stepG (BitVec.ofNat 32 i.val) (BitVec.ofNat 32 j.val) x0 kb x2 lb s).2.1 (ix2 y 0),
      (stepG (BitVec.ofNat 32 i.val) (BitVec.ofNat 32 j.val) x0 kb x2 lb s).2.2 (ix2 y 0))
      = Cert.Spec.upd (s.1 (ix2 y 0), s.2.1 (ix2 y 0), s.2.2 (ix2 y 0)) (Cert.Spec.tileA E (Cert.Spec.col i y) j)
          (Cert.Spec.tileP L (Cert.Spec.col i y) j) := by
  have hA : (fun c : Fin 1024 => k0_pay15 (F := Ideal) (BitVec.ofNat 32 i.val) (BitVec.ofNat 32 j.val)
      (k0_pay4 (F := Ideal) x0 kb) (ix2 y c)) = Cert.Spec.tileA E (Cert.Spec.col i y) j := by
    funext c
    rw [pay15_apply, pay4_sim E i j x0 kb hx0 hkb]
    rfl
  have hm : k0_pay16 (F := Ideal) (BitVec.ofNat 32 i.val) (BitVec.ofNat 32 j.val) (k0_pay4 (F := Ideal) x0 kb) s.1 (ix2 y 0)
      = newMax E i j s y := by
    rw [pay16_apply, hA]
  have h17 : k0_pay17 (F := Ideal) (BitVec.ofNat 32 i.val) (BitVec.ofNat 32 j.val) (k0_pay4 (F := Ideal) x0 kb) s.1 s.1 (ix2 y 0)
      = Ideal.exp (s.1 (ix2 y 0)
          - newMax E i j s y) := by
    rw [pay17_apply, hm]
  have h18 : ∀ c : Fin 1024,
      k0_pay18 (F := Ideal) (BitVec.ofNat 32 i.val) (BitVec.ofNat 32 j.val) (k0_pay4 (F := Ideal) x0 kb) s.1 (ix2 y c)
      = Ideal.exp (Cert.Spec.tileA E (Cert.Spec.col i y) j c
          - newMax E i j s y) := by
    intro c
    rw [pay18_apply, hm]
    exact congrArg (fun t => Ideal.exp (t - _)) (congrFun hA c)
  have h1 : (stepG (BitVec.ofNat 32 i.val) (BitVec.ofNat 32 j.val) x0 kb x2 lb s).1 (ix2 y 0)
      = newMax E i j s y := by
    show k0_pay7 (F := Ideal) (k0_pay16 (F := Ideal) (BitVec.ofNat 32 i.val) (BitVec.ofNat 32 j.val) (k0_pay4 (F := Ideal) x0 kb) s.1)
      (ix2 y 0) = _
    rw [pay7_eq, hm]
  have h2 : (stepG (BitVec.ofNat 32 i.val) (BitVec.ofNat 32 j.val) x0 kb x2 lb s).2.1 (ix2 y 0)
      = Ideal.exp (s.1 (ix2 y 0)
          - newMax E i j s y)
          * s.2.1 (ix2 y 0)
        + ∑ c : Fin 1024, Ideal.exp (Cert.Spec.tileA E (Cert.Spec.col i y) j c
            - newMax E i j s y)
          * Cert.Spec.tileP L (Cert.Spec.col i y) j c := by
    show k0_pay6 (F := Ideal)
      (k0_pay20 (F := Ideal) (BitVec.ofNat 32 i.val) (BitVec.ofNat 32 j.val) (k0_pay4 (F := Ideal) x0 kb) s.1 s.1 s.2.1)
      (k0_pay21 (F := Ideal) (BitVec.ofNat 32 i.val) (BitVec.ofNat 32 j.val) (k0_pay4 (F := Ideal) x0 kb)
        (k0_pay5 (F := Ideal) x2 lb) s.1) (ix2 y 0) = _
    rw [pay6_apply, pay20_apply, h17]
    refine congrArg (fun t => _ + t) (Finset.sum_congr rfl fun c _ => ?_)
    rw [pay21_apply, h18 c, pay5_labdot L i j x2 lb hx2 hlb]
    rfl
  have h3 : (stepG (BitVec.ofNat 32 i.val) (BitVec.ofNat 32 j.val) x0 kb x2 lb s).2.2 (ix2 y 0)
      = Ideal.exp (s.1 (ix2 y 0)
          - newMax E i j s y)
          * s.2.2 (ix2 y 0)
        + ∑ c : Fin 1024, Ideal.exp (Cert.Spec.tileA E (Cert.Spec.col i y) j c
            - newMax E i j s y) := by
    show k0_pay19 (F := Ideal) (BitVec.ofNat 32 i.val) (BitVec.ofNat 32 j.val) (k0_pay4 (F := Ideal) x0 kb) s.1 s.1 s.2.2
      (ix2 y 0) = _
    rw [pay19_apply, h17]
    exact congrArg (fun t => _ + t) (Finset.sum_congr rfl fun c _ => h18 c)
  rw [h1, h2, h3]
  rfl

theorem stepN_row (hij : i ≠ j) (hx0 : ∀ (y : Fin 1024) (d : Fin 256), x0 (ix2 y d) = E (ix2 (Cert.Spec.col i y) d))
    (hkb : ∀ (c : Fin 1024) (d : Fin 256), kb (ix2 c d) = E (ix2 (Cert.Spec.col j c) d))
    (hx2 : ∀ (y : Fin 1024) (l : Fin 16), x2 (ix2 y l) = Cert.Spec.lab L (Cert.Spec.col i y) l)
    (hlb : ∀ (c : Fin 1024) (l : Fin 16), lb (ix2 c l) = Cert.Spec.lab L (Cert.Spec.col j c) l) (y : Fin 1024) :
    ((stepN x0 kb x2 lb s).1 (ix2 y 0), (stepN x0 kb x2 lb s).2.1 (ix2 y 0), (stepN x0 kb x2 lb s).2.2 (ix2 y 0))
      = Cert.Spec.upd (s.1 (ix2 y 0), s.2.1 (ix2 y 0), s.2.2 (ix2 y 0)) (Cert.Spec.tileA E (Cert.Spec.col i y) j)
          (Cert.Spec.tileP L (Cert.Spec.col i y) j) := by
  have hA : (fun c : Fin 1024 => k0_pay4 (F := Ideal) x0 kb (ix2 y c)) = Cert.Spec.tileA E (Cert.Spec.col i y) j := by
    funext c
    rw [pay4_sim E i j x0 kb hx0 hkb]
    unfold Cert.Spec.tileA Cert.Spec.simOff
    rw [if_pos (col_ne i j hij y c)]
  have hm : k0_pay8 (F := Ideal) x0 kb s.1 (ix2 y 0)
      = newMax E i j s y := by
    rw [pay8_apply, hA]
  have h9 : k0_pay9 (F := Ideal) x0 kb s.1 s.1 (ix2 y 0)
      = Ideal.exp (s.1 (ix2 y 0)
          - newMax E i j s y) := by
    rw [pay9_apply, hm]
  have h10 : ∀ c : Fin 1024, k0_pay10 (F := Ideal) x0 kb s.1 (ix2 y c)
      = Ideal.exp (Cert.Spec.tileA E (Cert.Spec.col i y) j c
          - newMax E i j s y) := by
    intro c
    rw [pay10_apply, hm]
    exact congrArg (fun t => Ideal.exp (t - _)) (congrFun hA c)
  have h1 : (stepN x0 kb x2 lb s).1 (ix2 y 0)
      = newMax E i j s y := by
    show k0_pay13 (F := Ideal) x0 kb s.1 (ix2 y 0) = _
    rw [pay13_eq, hm]
  have h2 : (stepN x0 kb x2 lb s).2.1 (ix2 y 0)
      = Ideal.exp (s.1 (ix2 y 0)
          - newMax E i j s y)
          * s.2.1 (ix2 y 0)
        + ∑ c : Fin 1024, Ideal.exp (Cert.Spec.tileA E (Cert.Spec.col i y) j c
            - newMax E i j s y)
          * Cert.Spec.tileP L (Cert.Spec.col i y) j c := by
    show k0_pay12 (F := Ideal) x0 kb x2 lb s.1 s.1 s.2.1 (ix2 y 0) = _
    rw [pay12_apply, h9]
    refine congrArg (fun t => _ + t) (Finset.sum_congr rfl fun c _ => ?_)
    rw [h10 c, pay5_labdot L i j x2 lb hx2 hlb]
    unfold Cert.Spec.tileP
    rw [if_pos (col_ne i j hij y c), mul_one]
  have h3 : (stepN x0 kb x2 lb s).2.2 (ix2 y 0)
      = Ideal.exp (s.1 (ix2 y 0)
          - newMax E i j s y)
          * s.2.2 (ix2 y 0)
        + ∑ c : Fin 1024, Ideal.exp (Cert.Spec.tileA E (Cert.Spec.col i y) j c
            - newMax E i j s y) := by
    show k0_pay11 (F := Ideal) x0 kb s.1 s.1 s.2.2 (ix2 y 0) = _
    rw [pay11_apply, h9]
    exact congrArg (fun t => _ + t) (Finset.sum_congr rfl fun c _ => h10 c)
  rw [h1, h2, h3]
  rfl

end Steps

end Cert.KernelIdeal.Hand

end
-- ==== Proof.KI.KValue.lean ====
import proofs.«421964_j23673859736135_3_alg».proof.Proof.KI.Pieces
import proofs.«421964_j23673859736135_3_alg».proof.Proof.KI.StepValue
import proofs.«421964_j23673859736135_3_alg».proof.Proof.Online
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

abbrev Etab (c : Dev nD) : Cert.Spec.SE.Idx → EReal := m ((c.tc : Thread nD τ).loc main_arg0)
abbrev Ltab (c : Dev nD) : IVec Cert.Spec.SL 32 := m ((c.tc : Thread nD τ).loc main_arg1)

theorem Earr_eq (c : Dev nD) : (V m c main_v0 : S8192x256.Idx → EReal) = Etab m c := by
  show StableHlo.after (List.flatten [hostOps0]) (fun b => m (c, b)) (Proc.devRef .tc main_v0) = _
  simp only [List.flatten_cons, List.flatten_nil, List.append_nil, hostOps0]
  after_results
  rfl

theorem Larr_eq (c : Dev nD) (r : Fin 8192) (l : Fin 16) :
    (V m c main_v1 : S8192x16.Idx → EReal) (ix2 r l) = Cert.Spec.lab (Ltab m c) r l := by
  have e : (V m c main_v1 : S8192x16.Idx → EReal)
      = (sitofp (F := Ideal) .bf16 (m ((c.tc : Thread nD τ).loc main_arg1)) : FVec Ideal S8192x16 .bf16) := by
    show StableHlo.after (List.flatten [hostOps0]) (fun b => m (c, b)) (Proc.devRef .tc main_v1) = _
    simp only [List.flatten_cons, List.flatten_nil, List.append_nil, hostOps0]
    after_results
  rw [e]
  rfl

theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0
    ∧ ((grid0.coords t) 0).val = t.val / 8 ∧ ((grid0.coords t) 1).val = t.val % 8 :=
  (by decide +kernel : ∀ t : Fin grid0.N, _)

theorem eblk_apply (c : Dev nD) (t : Fin cfg0.N) (i : Fin 8) (hi : t.val / 8 = i.val) (y : Fin 1024) (d : Fin 256) :
    (iblk m c 0 t : Vec Ideal S1024x256 .bf16) (ix2 y d) = Etab m c (ix2 (Cert.Spec.col i y) d) := by
  obtain ⟨e0, e1, -⟩ := idx_facts t
  unfold iblk
  rw [View.read_apply]
  show V m c main_v0 _ = _
  rw [Earr_eq]
  congr 1
  funext a
  apply Fin.ext
  match a with
  | ⟨0, _⟩ => show win0_0.index t 0 * 1024 + 1 * y.val = 1024 * i.val + y.val; rw [e0, hi]; omega
  | ⟨1, _⟩ => show win0_0.index t 1 * 256 + 1 * d.val = d.val; rw [e1]; omega

theorem earr_apply (c : Dev nD) (t : Fin cfg0.N) (r : Fin 8192) (d : Fin 256) :
    (iblk m c 1 t : Vec Ideal S8192x256 .bf16) (ix2 r d) = Etab m c (ix2 r d) := by
  obtain ⟨-, -, e0, e1, -⟩ := idx_facts t
  unfold iblk
  rw [View.read_apply]
  show V m c main_v0 _ = _
  rw [Earr_eq]
  congr 1
  funext a
  apply Fin.ext
  match a with
  | ⟨0, _⟩ => show win0_1.index t 0 * 8192 + 1 * r.val = r.val; rw [e0]; omega
  | ⟨1, _⟩ => show win0_1.index t 1 * 256 + 1 * d.val = d.val; rw [e1]; omega

theorem lblk_row_apply (c : Dev nD) (t : Fin cfg0.N) (i : Fin 8) (hi : t.val / 8 = i.val) (y : Fin 1024) (l : Fin 16) :
    (iblk m c 2 t : Vec Ideal S1024x16 .bf16) (ix2 y l) = Cert.Spec.lab (Ltab m c) (Cert.Spec.col i y) l := by
  obtain ⟨-, -, -, -, e0, e1, -⟩ := idx_facts t
  unfold iblk
  rw [View.read_apply]
  show V m c main_v1 _ = _
  refine Eq.trans (congrArg _ ?_) (Larr_eq m c (Cert.Spec.col i y) l)
  funext a
  apply Fin.ext
  match a with
  | ⟨0, _⟩ => show win0_2.index t 0 * 1024 + 1 * y.val = 1024 * i.val + y.val; rw [e0, hi]; omega
  | ⟨1, _⟩ => show win0_2.index t 1 * 16 + 1 * l.val = l.val; rw [e1]; omega

theorem larr_apply (c : Dev nD) (t : Fin cfg0.N) (r : Fin 8192) (l : Fin 16) :
    (iblk m c 3 t : Vec Ideal S8192x16 .bf16) (ix2 r l) = Cert.Spec.lab (Ltab m c) r l := by
  obtain ⟨-, -, -, -, -, -, e0, e1, -⟩ := idx_facts t
  unfold iblk
  rw [View.read_apply]
  show V m c main_v1 _ = _
  refine Eq.trans (congrArg _ ?_) (Larr_eq m c r l)
  funext a
  apply Fin.ext
  match a with
  | ⟨0, _⟩ => show win0_3.index t 0 * 8192 + 1 * r.val = r.val; rw [e0]; omega
  | ⟨1, _⟩ => show win0_3.index t 1 * 16 + 1 * l.val = l.val; rw [e1]; omega

abbrev row3 (s : Vec3 Ideal) (y : Fin 1024) : EReal × EReal × EReal := (s.1 (ix2 y 0), s.2.1 (ix2 y 0), s.2.2 (ix2 y 0))

abbrev rowAt (v : Vec5 Ideal) (y : Fin 1024) : EReal × EReal × EReal :=
  (v.2.2.1 (ix2 y 0), v.2.2.2.1 (ix2 y 0), v.2.2.2.2 (ix2 y 0))

theorem rowAt_of_acc (v : Vec5 Ideal) (s : Vec3 Ideal) (h : acc3 v = s) (y : Fin 1024) : rowAt v y = row3 s y := by
  subst h; rfl

abbrev xE (c : Dev nD) (t : Fin cfg0.N) : Vec Ideal S1024x256 .bf16 := iblk m c 0 t
abbrev xK (c : Dev nD) (t : Fin cfg0.N) : Vec Ideal S1024x256 .bf16 := kblk (grid0.coords t) (iblk m c 1 t)
abbrev xL (c : Dev nD) (t : Fin cfg0.N) : Vec Ideal S1024x16 .bf16 := iblk m c 2 t
abbrev xM (c : Dev nD) (t : Fin cfg0.N) : Vec Ideal S1024x16 .bf16 := lblk (grid0.coords t) (iblk m c 3 t)

theorem xK_apply (c : Dev nD) (t : Fin cfg0.N) (j : Fin 8) (hj : t.val % 8 = j.val) (r : Fin 1024) (d : Fin 256) :
    xK m c t (ix2 r d) = Etab m c (ix2 (Cert.Spec.col j r) d) := by
  refine (kblk_apply t (iblk m c 1 t) r d).trans ?_
  refine (earr_apply m c t _ d).trans ?_
  have e : (⟨1024 * (t.val % 8) + r.val, by have := r.isLt; omega⟩ : Fin 8192) = Cert.Spec.col j r :=
    Fin.ext (by show 1024 * (t.val % 8) + r.val = 1024 * j.val + r.val; rw [hj])
  rw [e]

theorem xM_apply (c : Dev nD) (t : Fin cfg0.N) (j : Fin 8) (hj : t.val % 8 = j.val) (r : Fin 1024) (l : Fin 16) :
    xM m c t (ix2 r l) = Cert.Spec.lab (Ltab m c) (Cert.Spec.col j r) l := by
  refine (lblk_apply t (iblk m c 3 t) r l).trans ?_
  refine (larr_apply m c t _ l).trans ?_
  have e : (⟨1024 * (t.val % 8) + r.val, by have := r.isLt; omega⟩ : Fin 8192) = Cert.Spec.col j r :=
    Fin.ext (by show 1024 * (t.val % 8) + r.val = 1024 * j.val + r.val; rw [hj])
  rw [e]

theorem wI_eq (t : Fin cfg0.N) (i : Fin 8) (hi : t.val / 8 = i.val) : wI t = BitVec.ofNat 32 i.val := by
  obtain ⟨-, -, -, -, -, -, -, -, -, -, -, -, e, -⟩ := idx_facts t
  exact congrArg (BitVec.ofNat 32) (e.trans hi)
theorem wJ_eq (t : Fin cfg0.N) (j : Fin 8) (hj : t.val % 8 = j.val) : wJ t = BitVec.ofNat 32 j.val := by
  obtain ⟨-, -, -, -, -, -, -, -, -, -, -, -, -, e⟩ := idx_facts t
  exact congrArg (BitVec.ofNat 32) (e.trans hj)

theorem stepG_at (c : Dev nD) (t : Fin cfg0.N) (i j : Fin 8) (hi : t.val / 8 = i.val) (hj : t.val % 8 = j.val)
    (s : Vec3 Ideal) (y : Fin 1024) :
    row3 (stepG (wI t) (wJ t) (xE m c t) (xK m c t) (xL m c t) (xM m c t) s) y
      = Cert.Spec.upd (row3 s y) (Cert.Spec.tileA (Etab m c) (Cert.Spec.col i y) j) (Cert.Spec.tileP (Ltab m c) (Cert.Spec.col i y) j) := by
  rw [wI_eq t i hi, wJ_eq t j hj]
  exact stepG_row (Etab m c) (Ltab m c) i j (xE m c t) (xK m c t) (xL m c t) (xM m c t) s
    (eblk_apply m c t i hi) (xK_apply m c t j hj) (lblk_row_apply m c t i hi) (xM_apply m c t j hj) y

theorem stepN_at (c : Dev nD) (t : Fin cfg0.N) (i j : Fin 8) (hi : t.val / 8 = i.val) (hj : t.val % 8 = j.val) (hij : i ≠ j)
    (s : Vec3 Ideal) (y : Fin 1024) :
    row3 (stepN (xE m c t) (xK m c t) (xL m c t) (xM m c t) s) y
      = Cert.Spec.upd (row3 s y) (Cert.Spec.tileA (Etab m c) (Cert.Spec.col i y) j) (Cert.Spec.tileP (Ltab m c) (Cert.Spec.col i y) j) :=
  stepN_row (Etab m c) (Ltab m c) i j (xE m c t) (xK m c t) (xL m c t) (xM m c t) s hij
    (eblk_apply m c t i hi) (xK_apply m c t j hj) (lblk_row_apply m c t i hi) (xM_apply m c t j hj) y

theorem N64 : cfg0.N = 64 := N_0

def pt (i : Fin 8) (k : ℕ) (hk : k < 8) : Fin cfg0.N :=
  ⟨8 * i.val + k, (show 8 * i.val + k < 64 by have := i.isLt; omega).trans_eq N64.symm⟩

theorem pt_val (i : Fin 8) (k : ℕ) (hk : k < 8) : (pt i k hk).val = 8 * i.val + k := rfl
theorem pt_div (i : Fin 8) (k : ℕ) (hk : k < 8) : (pt i k hk).val / 8 = i.val := by rw [pt_val]; omega
theorem pt_mod (i : Fin 8) (k : ℕ) (hk : k < 8) : (pt i k hk).val % 8 = k := by rw [pt_val]; omega

theorem outsAt_congr (c : Dev nD) {n n' : ℕ} (h : n = n') (hn : n < cfg0.N) (hn' : n' < cfg0.N) :
    outsAt m c n hn = outsAt m c n' hn' := by subst h; rfl

theorem prev_pt (c : Dev nD) (i : Fin 8) (k : ℕ) (hk : k + 1 < 8) :
    prevAt m c (pt i (k + 1) hk) = outsAt m c (pt i k (Nat.lt_of_succ_lt hk)).val (pt i k (Nat.lt_of_succ_lt hk)).isLt :=
  outsAt_congr m c (by rw [pt_val, pt_val]; omega) _ _

theorem acc_step (c : Dev nD) (i : Fin 8) (k : ℕ) (hk : k < 8) (y : Fin 1024)
    (hs : row3 (if (pt i k hk).val % 8 = 0 then reset (F := Ideal) else acc3 (prevAt m c (pt i k hk))) y
      = Cert.Spec.accAt (Etab m c) (Ltab m c) (Cert.Spec.col i y) k) :
    rowAt (outsAt m c (pt i k hk).val (pt i k hk).isLt) y = Cert.Spec.accAt (Etab m c) (Ltab m c) (Cert.Spec.col i y) (k + 1) := by
  have hd := pt_div i k hk
  have hm := pt_mod i k hk
  rw [Cert.Spec.accAt_succ (Etab m c) (Ltab m c) (Cert.Spec.col i y) k hk]
  refine (rowAt_of_acc _ _ (outsAt_acc m c (pt i k hk)) y).trans ?_
  unfold stepAt
  by_cases h2 : (pt i k hk).val / 8 = (pt i k hk).val % 8
  · rw [decide_eq_true h2]
    exact (stepG_at m c (pt i k hk) i ⟨k, hk⟩ hd hm _ y).trans (congrArg (fun s => Cert.Spec.upd s (Cert.Spec.tileA (Etab m c) (Cert.Spec.col i y) ⟨k, hk⟩) (Cert.Spec.tileP (Ltab m c) (Cert.Spec.col i y) ⟨k, hk⟩)) hs)
  · have hij : i ≠ (⟨k, hk⟩ : Fin 8) := fun e => h2 (by rw [hd, hm]; exact congrArg Fin.val e)
    rw [decide_eq_false h2]
    exact (stepN_at m c (pt i k hk) i ⟨k, hk⟩ hd hm hij _ y).trans (congrArg (fun s => Cert.Spec.upd s (Cert.Spec.tileA (Etab m c) (Cert.Spec.col i y) ⟨k, hk⟩) (Cert.Spec.tileP (Ltab m c) (Cert.Spec.col i y) ⟨k, hk⟩)) hs)

theorem acc_inv (c : Dev nD) (i : Fin 8) : ∀ (k : ℕ) (hk : k < 8) (y : Fin 1024),
    rowAt (outsAt m c (pt i k hk).val (pt i k hk).isLt) y
      = Cert.Spec.accAt (Etab m c) (Ltab m c) (Cert.Spec.col i y) (k + 1)
  | 0, hk, y => acc_step m c i 0 hk y (by rw [if_pos (pt_mod i 0 hk), Cert.Spec.accAt_zero]; exact reset_row y)
  | k + 1, hk, y => acc_step m c i (k + 1) hk y (by
      rw [if_neg (by rw [pt_mod]; omega), prev_pt m c i k hk]; exact acc_inv c i k (Nat.lt_of_succ_lt hk) y)

theorem out_eq_acc (c : Dev nD) (t : Fin cfg0.N) (h4 : t.val % 8 = 7) :
    (outsAt m c t.val t.isLt).1 = (outsAt m c t.val t.isLt).2.2.2.1
      ∧ (outsAt m c t.val t.isLt).2.1 = (outsAt m c t.val t.isLt).2.2.2.2 := outsAt_out m c t h4

theorem last_row (c : Dev nD) (hfin : ∀ i, ∃ x : ℝ, Etab m c i = (x : EReal)) (i : Fin 8) (y : Fin 1024) :
    (outsAt m c (pt i 7 (by omega)).val (pt i 7 (by omega)).isLt).1 (ix2 y 0)
        = Cert.Spec.posExp (Etab m c) (Ltab m c) (Cert.Spec.col i y)
      ∧ (outsAt m c (pt i 7 (by omega)).val (pt i 7 (by omega)).isLt).2.1 (ix2 y 0)
        = Cert.Spec.negExp (Etab m c) (Cert.Spec.col i y) := by
  have h : rowAt (outsAt m c (pt i 7 (by omega)).val (pt i 7 (by omega)).isLt) y
      = Cert.Spec.accAt (Etab m c) (Ltab m c) (Cert.Spec.col i y) 8 := acc_inv m c i 7 (by omega) y
  rw [Cert.Spec.accAt_eight (Etab m c) (Ltab m c) hfin (Cert.Spec.col i y)] at h
  obtain ⟨e1, e2⟩ := out_eq_acc m c (pt i 7 (by omega)) (pt_mod i 7 (by omega))
  rw [e1, e2]
  exact ⟨congrArg (fun s => s.2.1) h, congrArg (fun s => s.2.2) h⟩

theorem eq_pt_of_last (t : Fin cfg0.N) (h7 : t.val % 8 = 7) :
    t = pt ⟨t.val / 8, by have := lt_of_lt_of_eq t.isLt N64; omega⟩ 7 (by omega) :=
  Fin.ext (by rw [pt_val]; show t.val = 8 * (t.val / 8) + 7; omega)

theorem flushed4_eq (c : Dev nD) (hfin : ∀ i, ∃ x : ℝ, Etab m c i = (x : EReal)) (t : Fin cfg0.N)
    (hf : (cfg0.win 4).flush t = true) :
    (dats m 0 c).flushed 4 t
      = ((cfg0.win 4).blk t).view.read (Elt Ideal) (fun idx => Cert.Spec.posExp (Etab m c) (Ltab m c) (idx 0)) := by
  have h7 : t.val % 8 = 7 := (flush0_4 t).mp hf
  have hlt : t.val / 8 < 8 := by have := lt_of_lt_of_eq t.isLt N64; omega
  obtain ⟨-, -, -, -, -, -, -, -, e0, e1, -⟩ := idx_facts t
  show (cfg0.win 4).cut (grid0.coords t) ((dats m 0 c).after 4 t) = _
  rw [after4]
  funext j
  rw [View.read_apply]
  have hj0 : (j 0).val < 1024 := (j 0).isLt
  have hj1 : (j 1).val < 1 := (j 1).isLt
  have hx : (cfg0.win 4).xinj (grid0.coords t) j = (ix2 (⟨(j 0).val, hj0⟩ : Fin 1024) (0 : Fin 1) : S1024x1.Idx) :=
    funext fun a => Fin.ext (by
      match a with
      | ⟨0, _⟩ => rfl
      | ⟨1, _⟩ => show (j 1).val = 0; omega)
  have hr : (((cfg0.win 4).blk t).view.emb j) 0 = Cert.Spec.col ⟨t.val / 8, hlt⟩ ⟨(j 0).val, hj0⟩ :=
    Fin.ext (by show win0_4.index t 0 * 1024 + 1 * (j 0).val = 1024 * (t.val / 8) + (j 0).val; rw [e0]; omega)
  show (outsAt m c t.val t.isLt).1 ((cfg0.win 4).xinj (grid0.coords t) j) = Cert.Spec.posExp (Etab m c) (Ltab m c) ((((cfg0.win 4).blk t).view.emb j) 0)
  rw [hx, hr]
  have ht := eq_pt_of_last t h7
  have hl := (last_row m c hfin ⟨t.val / 8, hlt⟩ ⟨(j 0).val, hj0⟩).1
  rw [← ht] at hl
  exact hl

theorem mem_blk4 (t : Fin cfg0.N) (i : S8192x1.Idx)
    (h : 1024 * (t.val / 8) ≤ (i 0).val ∧ (i 0).val < 1024 * (t.val / 8) + 1024) :
    i ∈ ((cfg0.win 4).blk t).view.set := by
  obtain ⟨-, -, -, -, -, -, -, -, e0, e1, -⟩ := idx_facts t
  have h1 : (i 1).val < 1 := (i 1).isLt
  show i ∈ ((View.whole main_v2_0).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [e0]; omega
  | ⟨1, _⟩ =>
    show win0_4.index t 1 * 1 ≤ (i 1).val ∧ (i 1).val < win0_4.index t 1 * 1 + 1
    rw [e1]; omega

theorem cover4 (i : S8192x1.Idx) :
    ∃ t : Fin cfg0.N, (cfg0.win 4).flush t = true ∧ i ∈ ((cfg0.win 4).blk t).view.set := by
  have h0 : (i 0).val < 8192 := (i 0).isLt
  have hq : (i 0).val / 1024 < 8 := by omega
  refine ⟨pt ⟨(i 0).val / 1024, hq⟩ 7 (by omega), (flush0_4 _).mpr (pt_mod _ 7 (by omega)), mem_blk4 _ i ?_⟩
  rw [pt_div]
  show 1024 * ((i 0).val / 1024) ≤ (i 0).val ∧ (i 0).val < 1024 * ((i 0).val / 1024) + 1024
  omega

theorem flushed5_eq (c : Dev nD) (hfin : ∀ i, ∃ x : ℝ, Etab m c i = (x : EReal)) (t : Fin cfg0.N)
    (hf : (cfg0.win 5).flush t = true) :
    (dats m 0 c).flushed 5 t
      = ((cfg0.win 5).blk t).view.read (Elt Ideal) (fun idx => Cert.Spec.negExp (Etab m c) (idx 0)) := by
  have h7 : t.val % 8 = 7 := (flush0_5 t).mp hf
  have hlt : t.val / 8 < 8 := by have := lt_of_lt_of_eq t.isLt N64; omega
  obtain ⟨-, -, -, -, -, -, -, -, -, -, e0, e1, -⟩ := idx_facts t
  show (cfg0.win 5).cut (grid0.coords t) ((dats m 0 c).after 5 t) = _
  rw [after5]
  funext j
  rw [View.read_apply]
  have hj0 : (j 0).val < 1024 := (j 0).isLt
  have hj1 : (j 1).val < 1 := (j 1).isLt
  have hx : (cfg0.win 5).xinj (grid0.coords t) j = (ix2 (⟨(j 0).val, hj0⟩ : Fin 1024) (0 : Fin 1) : S1024x1.Idx) :=
    funext fun a => Fin.ext (by
      match a with
      | ⟨0, _⟩ => rfl
      | ⟨1, _⟩ => show (j 1).val = 0; omega)
  have hr : (((cfg0.win 5).blk t).view.emb j) 0 = Cert.Spec.col ⟨t.val / 8, hlt⟩ ⟨(j 0).val, hj0⟩ :=
    Fin.ext (by show win0_5.index t 0 * 1024 + 1 * (j 0).val = 1024 * (t.val / 8) + (j 0).val; rw [e0]; omega)
  show (outsAt m c t.val t.isLt).2.1 ((cfg0.win 5).xinj (grid0.coords t) j) = Cert.Spec.negExp (Etab m c) ((((cfg0.win 5).blk t).view.emb j) 0)
  rw [hx, hr]
  have ht := eq_pt_of_last t h7
  have hl := (last_row m c hfin ⟨t.val / 8, hlt⟩ ⟨(j 0).val, hj0⟩).2
  rw [← ht] at hl
  exact hl

theorem mem_blk5 (t : Fin cfg0.N) (i : S8192x1.Idx)
    (h : 1024 * (t.val / 8) ≤ (i 0).val ∧ (i 0).val < 1024 * (t.val / 8) + 1024) :
    i ∈ ((cfg0.win 5).blk t).view.set := by
  obtain ⟨-, -, -, -, -, -, -, -, -, -, e0, e1, -⟩ := idx_facts t
  have h1 : (i 1).val < 1 := (i 1).isLt
  show i ∈ ((View.whole main_v2_1).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [e0]; omega
  | ⟨1, _⟩ =>
    show win0_5.index t 1 * 1 ≤ (i 1).val ∧ (i 1).val < win0_5.index t 1 * 1 + 1
    rw [e1]; omega

theorem cover5 (i : S8192x1.Idx) :
    ∃ t : Fin cfg0.N, (cfg0.win 5).flush t = true ∧ i ∈ ((cfg0.win 5).blk t).view.set := by
  have h0 : (i 0).val < 8192 := (i 0).isLt
  have hq : (i 0).val / 1024 < 8 := by omega
  refine ⟨pt ⟨(i 0).val / 1024, hq⟩ 7 (by omega), (flush0_5 _).mpr (pt_mod _ 7 (by omega)), mem_blk5 _ i ?_⟩
  rw [pt_div]
  show 1024 * ((i 0).val / 1024) ≤ (i 0).val ∧ (i 0).val < 1024 * ((i 0).val / 1024) + 1024
  omega

theorem arrAt4_eq (c : Dev nD) (hfin : ∀ i, ∃ x : ℝ, Etab m c i = (x : EReal)) :
    (dats m 0 c).arrAt 4 cfg0.N = fun idx => Cert.Spec.posExp (Etab m c) (Ltab m c) (idx 0) :=
  (dats m 0 c).arrAt_eq_of_cover 4 (fun idx => Cert.Spec.posExp (Etab m c) (Ltab m c) (idx 0))
    (fun t hf => flushed4_eq m c hfin t hf) cover4

theorem arrAt5_eq (c : Dev nD) (hfin : ∀ i, ∃ x : ℝ, Etab m c i = (x : EReal)) :
    (dats m 0 c).arrAt 5 cfg0.N = fun idx => Cert.Spec.negExp (Etab m c) (idx 0) :=
  (dats m 0 c).arrAt_eq_of_cover 5 (fun idx => Cert.Spec.negExp (Etab m c) (idx 0))
    (fun t hf => flushed5_eq m c hfin t hf) cover5

end Cert.KernelIdeal.Hand

end
-- ==== Proof.KI.TailDefs.lean ====
import proofs.«421964_j23673859736135_3_alg».proof.Proof.Gen.KernelIdeal.Launch

noncomputable section

namespace Cert.KernelIdeal.Hand

open Cert.KernelIdeal Cert.KernelIdeal.Gen
open Idealize.ShloMosaic Idealize.ShloMosaic.TcCoe Idealize.SL.Sem

variable {F : FTy → Type} [FloatOps F] [Named F]

def hasPosK (L : IVec S8192x16 32) : IVec S8192 1 :=
  Host.reduce IntOp.ori
    (andi (cmpi .eq L (broadcastInDim S8192x16 ![] bcast_S_S8192x16 (constantI S_ 32 1#32)))
      (broadcastInDim S8192x16 ![0, 1] bcast_S1x16_S8192x16_0_1
        (cmpi .sge (broadcastInDim S1x16 ![1] bcast_S16_S1x16_1 (Host.reduce IntOp.addi L (constantI S_ 32 0#32) reducesTo_S8192x16_S16_d0 h_S_))
          (broadcastInDim S1x16 ![] bcast_S_S1x16 (constantI S_ 32 2#32)))))
    (constantI S_ 1 0#1) reducesTo_S8192x16_S8192_d1 h_S_

def lossK (hp : IVec S8192 1) (p n : FVec F S8192 .f32) : FVec F S_ .f32 :=
  let v14 : FVec F S8192 .f32 := select hp p (broadcastInDim S8192 ![] bcast_S_S8192 (constant S_ .f32 0x3F800000#32))
  let v16 : FVec F S8192 .f32 := addf n (broadcastInDim S8192 ![] bcast_S_S8192 (constant S_ .f32 0x322BCC77#32))
  let v19 : FVec F S8192 .f32 := Host.negf (Host.log (Host.divf v14 v16))
  let v21 : FVec F S_ .f32 := Host.reduceAdd (uitofp (F := F) .f32 hp) (constant S_ .f32 0x00000000#32) reducesTo_S8192_S_d0 h_S_
  let v22 : FVec F S_ .f32 := maximumf v21 (constant S_ .f32 0x3F800000#32)
  let v23 : FVec F S8192 .f32 := select hp v19 (broadcastInDim S8192 ![] bcast_S_S8192 (constant S_ .f32 0x00000000#32))
  let v24 : FVec F S_ .f32 := Host.reduceAdd v23 (constant S_ .f32 0x00000000#32) reducesTo_S8192_S_d0 h_S_
  Host.divf v24 v22

end Cert.KernelIdeal.Hand

end
-- ==== Proof.KI.KTail.lean ====
import proofs.«421964_j23673859736135_3_alg».proof.Proof.KI.TailDefs
import proofs.«421964_j23673859736135_3_alg».proof.Proof.Spec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.SL.Sem

variable {F : FTy → Type} [FloatOps F] [Named F]

def col1 (x : FVec F S8192x1 .f32) : FVec F S8192 .f32 :=
  fun i => shapeCast S8192 x shapeCasts_S8192x1_S8192 i

theorem tail_result (W : Valuation τ sig (Elt F)) :
    StableHlo.after (List.flatten [hostOps1, hostOps1_1, hostOps1_2, hostOps1_3, hostOps1_4]) W (Proc.devRef .tc main_v25)
      = lossK (hasPosK (W (Proc.devRef .tc main_arg1) : IVec S8192x16 32))
          (col1 (W (Proc.devRef .tc main_v2_0) : FVec F S8192x1 .f32))
          (col1 (W (Proc.devRef .tc main_v2_1) : FVec F S8192x1 .f32)) := by
  simp only [List.flatten_cons, List.flatten_nil, List.append_nil, List.cons_append, List.nil_append,
    hostOps1, hostOps1_1, hostOps1_2, hostOps1_3, hostOps1_4]
  after_results_simp <;> (try simp only [StableHlo.TRef.ofBuf, StableHlo.TRef.toBuf, cast_eq]) <;> rfl

theorem lossK_eq (hp : IVec S8192 1) (p n : FVec Ideal S8192 .f32) :
    lossK (F := Ideal) hp p n = fun _ => Cert.Spec.loss hp p n := by
  funext i
  unfold lossK Cert.Spec.loss Cert.Spec.rowLoss
  simp only [Host.divf, Host.reduceAdd, Ideal.hostDivf_def, Ideal.hostReduceAdd_def, ValueIdx.maximumf_apply]
  rw [Ideal.hostReduceAdd_total _ (fun b => b.elim0), Ideal.hostReduceAdd_total _ (fun b => b.elim0)]
  rfl

end Cert.KernelIdeal.Hand

end
-- ==== Proof.KI.HasPos.lean ====
import proofs.«421964_j23673859736135_3_alg».proof.Proof.KI.TailDefs
import proofs.«421964_j23673859736135_3_alg».proof.Proof.Spec
import Idealize.ShloMosaic.Lib.StableHlo.Predicate
import Idealize.ShloMosaic.Lib.IdealHost
import Idealize.ShloMosaic.Lib.ValueIdx
import Idealize.ShloMosaic.Lib.Affine
import Idealize.ShloMosaic.PureOps.Reduce
import Mathlib.Data.Finset.Card
import Mathlib.Algebra.Order.BigOperators.Group.Finset
import Mathlib.Data.EReal.Basic

noncomputable section

namespace Cert.KernelIdeal.Hand

open Cert.KernelIdeal Cert.KernelIdeal.Gen
open Idealize.ShloMosaic Idealize.ShloMosaic.ValueIdx Idealize.ShloMosaic.StableHlo.Predicate

theorem bit_eq_of_one_iff : ∀ a b : BitVec 1, (a = 1#1 ↔ b = 1#1) → a = b := by decide

theorem fold_ori_eq_one_iff {ι : Type} (S : Finset ι) (f : ι → BitVec 1) :
    S.fold IntOp.ori 0#1 f = 1#1 ↔ ∃ i ∈ S, f i = 1#1 := by
  induction S using Finset.cons_induction with
  | empty =>
    constructor
    · intro h; rw [Finset.fold_empty] at h; exact absurd h (by decide)
    · rintro ⟨i, hi, _⟩; simp at hi
  | cons a S ha ih =>
    rw [Finset.fold_cons, IntOp.ori_eq_one, ih]
    constructor
    · rintro (h | ⟨i, hi, h⟩)
      · exact ⟨a, Finset.mem_cons_self a S, h⟩
      · exact ⟨i, Finset.mem_cons.2 (Or.inr hi), h⟩
    · rintro ⟨i, hi, h⟩
      rcases Finset.mem_cons.1 hi with rfl | hi
      · exact Or.inl h
      · exact Or.inr ⟨i, hi, h⟩

theorem reduce_ori_row (x : IVec S8192x16 1) (h : S8192x16.ReducesTo [1] S8192) {u : Shape} (hu : 0 < u.numel)
    (r : Fin 8192) :
    Host.reduce IntOp.ori x (constantI u 1 0#1) h hu (ix1 r) = 1#1 ↔ ∃ q : Fin 16, x (ix2 r q) = 1#1 := by
  classical
  rw [Host.reduce_eq_fold]
  show Finset.fold IntOp.ori 0#1 x (Finset.univ.filter fun i : S8192x16.Idx => h.drop i = ix1 r) = 1#1 ↔ _
  rw [fold_ori_eq_one_iff]
  have hv : ∀ i : S8192x16.Idx, ((h.drop i 0 : Fin 8192) : Nat) = ((i 0 : Fin 8192) : Nat) :=
    fun i => Shape.ReducesTo.drop_apply_val_of_eq h i 0 0
  constructor
  · rintro ⟨i, hi, hx⟩
    have e : h.drop i = ix1 r := (Finset.mem_filter.1 hi).2
    have h0 : i 0 = r := Fin.ext (by rw [← hv i, e])
    refine ⟨i 1, ?_⟩
    rw [← h0]
    exact (congrArg x (eq_ix2 i).symm).trans hx
  · rintro ⟨q, hx⟩
    refine ⟨ix2 r q, Finset.mem_filter.2 ⟨Finset.mem_univ _, ?_⟩, hx⟩
    rw [eq_ix1 (h.drop (ix2 r q))]
    exact congrArg ix1 (Fin.ext (hv _))

theorem cmpi_apply {s : Shape} {w : Nat} (p : CmpIPredicate) (x y : IVec s w) (i : s.Idx) :
    cmpi p x y i = IntOp.cmpi p (x i) (y i) := rfl

theorem andi_apply {s : Shape} {w : Nat} (x y : IVec s w) (i : s.Idx) : andi x y i = IntOp.andi (x i) (y i) := rfl

def oneBit (L : IVec S8192x16 32) : IVec S8192x16 1 := fun i => BitVec.ofBool (L i == 1#32)

theorem oneBit_eq_one_iff (L : IVec S8192x16 32) (i : S8192x16.Idx) : oneBit L i = 1#1 ↔ L i = 1#32 := by
  unfold oneBit; rw [ofBool_eq_one_iff, beq_iff_eq]

theorem widen_oneBit (L : IVec S8192x16 32) (h01 : ∀ i, L i = 0#32 ∨ L i = 1#32) :
    extui 32 (oneBit L) (by decide) = L := by
  funext i
  show (BitVec.ofBool (L i == 1#32)).setWidth 32 = L i
  rcases h01 i with h | h <;> rw [h] <;> rfl

def colCount (L : IVec S8192x16 32) (l : Fin 16) : Nat :=
  (Finset.univ.filter (fun p : Fin 8192 => L (ix2 p l) = 1#32)).card

theorem colCount_le (L : IVec S8192x16 32) (l : Fin 16) : colCount L l ≤ 8192 := by
  unfold colCount
  exact (Finset.card_le_univ _).trans (by simp)

theorem ij_eq_ix2 {n m : Nat} (p : Fin n) (q : Fin m) : ij p q = ix2 p q := by
  funext b; match b with | ⟨0, _⟩ => rfl | ⟨1, _⟩ => rfl

theorem colsum_toNat (L : IVec S8192x16 32) (h01 : ∀ i, L i = 0#32 ∨ L i = 1#32)
    (h : S8192x16.ReducesTo [0] S16) {u : Shape} (hu : 0 < u.numel) (l : Fin 16) :
    (Host.reduce IntOp.addi L (constantI u 32 0#32) h hu (Shape.Idx.ofFin l)).toNat = colCount L l := by
  have e := toNat_reduce_count_rows (n := 8192) (m := 16) (by decide) (oneBit L) (by decide) h hu (Shape.Idx.ofFin l)
  rw [widen_oneBit L h01] at e
  rw [e]
  unfold colCount
  refine congrArg Finset.card (Finset.filter_congr fun p _ => ?_)
  rw [Shape.Idx.ofFin_zero, ij_eq_ix2]
  exact oneBit_eq_one_iff L _

theorem colBit_apply (L : IVec S8192x16 32) (hb2 : S1x16.BroadcastsInDim S8192x16 ![0, 1]) (hb1 : S16.BroadcastsInDim S1x16 ![1])
    (hb0 : S_.BroadcastsInDim S1x16 ![]) (h : S8192x16.ReducesTo [0] S16) (hu : 0 < S_.numel) (r : Fin 8192) (l : Fin 16) :
    broadcastInDim S8192x16 ![0, 1] hb2
        (cmpi .sge (broadcastInDim S1x16 ![1] hb1 (Host.reduce IntOp.addi L (constantI S_ 32 0#32) h hu))
          (broadcastInDim S1x16 ![] hb0 (constantI S_ 32 2#32))) (ix2 r l)
      = IntOp.cmpi .sge (Host.reduce IntOp.addi L (constantI S_ 32 0#32) h hu (Shape.Idx.ofFin l)) 2#32 := by
  rw [← ij_eq_ix2, bcast_of_row, cmpi_apply, bcast_row1, broadcastInDim_scalar_apply]
  rfl

theorem hasPosK_eq_one_iff (L : IVec S8192x16 32) (h01 : ∀ i, L i = 0#32 ∨ L i = 1#32) (r : Fin 8192) :
    hasPosK L (ix1 r) = 1#1 ↔ ∃ l : Fin 16, L (ix2 r l) = 1#32 ∧ 2 ≤ colCount L l := by
  unfold hasPosK
  rw [reduce_ori_row]
  refine exists_congr fun l => ?_
  have hc := colsum_toNat L h01 reducesTo_S8192x16_S16_d0 h_S_ l
  have hle := colCount_le L l
  rw [andi_apply, cmpi_apply, IntOp.andi_eq_one, broadcastInDim_scalar_apply, colBit_apply, cmpi_eq_iff,
    sge_iff_toNat (by rw [hc]; omega) (by decide), hc]
  exact Iff.rfl

theorem lab_eq (L : IVec S8192x16 32) (h01 : ∀ i, L i = 0#32 ∨ L i = 1#32) (r : Fin 8192) (l : Fin 16) :
    Cert.Spec.lab L r l = if L (ix2 r l) = 1#32 then 1 else 0 := by
  unfold Cert.Spec.lab
  rcases h01 (ix2 r l) with h | h
  · have e : (L (ix2 r l)).toInt = 0 := by rw [h]; rfl
    rw [e, if_neg (by rw [h]; decide)]; simp
  · have e : (L (ix2 r l)).toInt = 1 := by rw [h]; rfl
    rw [e, if_pos h]; simp

theorem labdot_pos_iff (L : IVec S8192x16 32) (h01 : ∀ i, L i = 0#32 ∨ L i = 1#32) (r c : Fin 8192) :
    0 < Cert.Spec.labdot L r c ↔ ∃ l : Fin 16, L (ix2 r l) = 1#32 ∧ L (ix2 c l) = 1#32 := by
  unfold Cert.Spec.labdot
  simp only [lab_eq L h01]
  constructor
  · intro h
    by_contra hn0
    have hn : ∀ l : Fin 16, L (ix2 r l) = 1#32 → ¬ L (ix2 c l) = 1#32 := fun l hr hc => hn0 ⟨l, hr, hc⟩
    have hz : ∑ l : Fin 16, (if L (ix2 r l) = 1#32 then (1 : EReal) else 0) * (if L (ix2 c l) = 1#32 then (1 : EReal) else 0) = 0 :=
      Finset.sum_eq_zero fun l _ => by
        by_cases hr : L (ix2 r l) = 1#32
        · rw [if_neg (hn l hr), mul_zero]
        · rw [if_neg hr, zero_mul]
    rw [hz] at h
    exact lt_irrefl _ h
  · rintro ⟨l, hr, hc⟩
    have hle := Finset.single_le_sum
      (f := fun l : Fin 16 => (if L (ix2 r l) = 1#32 then (1 : EReal) else 0) * (if L (ix2 c l) = 1#32 then (1 : EReal) else 0))
      (s := Finset.univ) (fun i _ => by
        show (0 : EReal) ≤ _
        split_ifs <;> simp) (Finset.mem_univ l)
    refine lt_of_lt_of_le ?_ hle
    show (0 : EReal) < (if L (ix2 r l) = 1#32 then (1 : EReal) else 0) * (if L (ix2 c l) = 1#32 then (1 : EReal) else 0)
    rw [if_pos hr, if_pos hc, mul_one]
    exact zero_lt_one

theorem exists_isPos_iff (L : IVec S8192x16 32) (h01 : ∀ i, L i = 0#32 ∨ L i = 1#32) (r : Fin 8192) :
    (∃ c, Cert.Spec.isPos L r c) ↔ ∃ l : Fin 16, L (ix2 r l) = 1#32 ∧ 2 ≤ colCount L l := by
  constructor
  · rintro ⟨c, hpos, hne⟩
    obtain ⟨l, hr, hc⟩ := (labdot_pos_iff L h01 r c).1 hpos
    refine ⟨l, hr, ?_⟩
    exact Finset.one_lt_card.2 ⟨c, Finset.mem_filter.2 ⟨Finset.mem_univ _, hc⟩, r, Finset.mem_filter.2 ⟨Finset.mem_univ _, hr⟩, hne⟩
  · rintro ⟨l, hr, hcard⟩
    obtain ⟨c, hc, hne⟩ := Finset.exists_mem_ne (s := Finset.univ.filter (fun p : Fin 8192 => L (ix2 p l) = 1#32)) hcard r
    exact ⟨c, (labdot_pos_iff L h01 r c).2 ⟨l, hr, (Finset.mem_filter.1 hc).2⟩, hne⟩

theorem hasPosK_eq (L : IVec S8192x16 32) (h01 : ∀ i, L i = 0#32 ∨ L i = 1#32) : hasPosK L = Cert.Spec.hasVec L := by
  funext i
  obtain ⟨r, rfl⟩ : ∃ r : Fin 8192, i = ix1 r := ⟨i 0, eq_ix1 i⟩
  apply bit_eq_of_one_iff
  rw [hasPosK_eq_one_iff L h01 r, ← exists_isPos_iff L h01 r]
  show _ ↔ Cert.Spec.hasPos L r = 1#1
  unfold Cert.Spec.hasPos
  by_cases h : ∃ c, Cert.Spec.isPos L r c
  · rw [if_pos h]; exact ⟨fun _ => rfl, fun _ => h⟩
  · rw [if_neg h]; exact ⟨fun h' => absurd h' h, fun h' => absurd h' (by decide)⟩

end Cert.KernelIdeal.Hand

end
-- ==== Proof.PreFacts.lean ====
import proofs.«421964_j23673859736135_3_alg».proof.Proof.Gen.Pre_finite_inputs
import Idealize.ShloMosaic.Lib.ReduceAll
import Idealize.ShloMosaic.Lib.IdealHost
import Idealize.ShloMosaic.Lib.ValueIdx
import Idealize.ShloMosaic.Lib.StableHlo.Predicate
import Idealize.ShloMosaic.PureOps.Ideal.Laws

noncomputable section

namespace Cert.PreFacts

open Idealize.ShloMosaic Idealize.ShloMosaic.ValueIdx Idealize.ShloMosaic.StableHlo.Predicate
open Cert.Pre_finite_inputs Cert.Pre_finite_inputs.Gen

instance subsingleton_S_ : Subsingleton S_.Idx := ⟨fun a b => funext fun d => d.elim0⟩

variable [Facts]

theorem ofBits_inf : Ideal.ofBits .f32 0x7F800000#32 = (⊤ : EReal) := by simp [Ideal.ofBits, Ideal.ieee]

theorem real_of_abs_lt_top (x : EReal)
    (h : Ideal.cmp .olt (max x (-x)) (Ideal.ofBits .f32 0x7F800000#32) = 1#1) : ∃ r : ℝ, x = (r : EReal) := by
  rw [ofBits_inf] at h
  have h' : max x (-x) < ⊤ := by
    simpa [Ideal.cmp, ofBool_eq_one_iff] using h
  induction x using EReal.rec with
  | bot => simp at h'
  | top => simp at h'
  | coe r => exact ⟨r, rfl⟩

theorem split_pre (E : FVec Ideal S8192x256 .f32) (L : IVec S8192x16 32)
    (h : fn (F := Ideal) E L = fun _ => 1#1) :
    Host.reduce IntOp.andi
        (cmpf .olt (Host.absf E) (broadcastInDim S8192x256 ![] Facts.bcast_S_S8192x256 (constant (F := Ideal) S_ .f32 0x7F800000#32)))
        (constantI S_ 1 1#1) Facts.reducesTo_S8192x256_S_d0_1 Facts.h_S_ ix0 = 1#1
    ∧ Host.reduce IntOp.andi
        (ori (cmpi .eq L (broadcastInDim S8192x16 ![] Facts.bcast_S_S8192x16 (constantI S_ 32 0#32)))
          (cmpi .eq L (broadcastInDim S8192x16 ![] Facts.bcast_S_S8192x16 (constantI S_ 32 1#32))))
        (constantI S_ 1 1#1) Facts.reducesTo_S8192x16_S_d0_1 Facts.h_S_ ix0 = 1#1 := by
  have h0 := congrFun h ix0
  dsimp only [fn] at h0
  exact IntOp.andi_eq_one.1 h0

theorem finite_of_pre (E : FVec Ideal S8192x256 .f32) (L : IVec S8192x16 32)
    (h : fn (F := Ideal) E L = fun _ => 1#1) : ∀ i, ∃ x : ℝ, E i = (x : EReal) := by
  intro i
  have hi := Host.reduce_andi_all _ _ _ _ _ (split_pre E L h).1 i
  refine real_of_abs_lt_top (E i) ?_
  rw [← hi]
  show _ = Ideal.cmp .olt (max (E i) (-(E i)))
    (broadcastInDim S8192x256 ![] Facts.bcast_S_S8192x256 (constant (F := Ideal) S_ .f32 0x7F800000#32) i)
  rw [broadcastInDim_scalar_apply]
  rfl

theorem labels01_of_pre (E : FVec Ideal S8192x256 .f32) (L : IVec S8192x16 32)
    (h : fn (F := Ideal) E L = fun _ => 1#1) : ∀ i, L i = 0#32 ∨ L i = 1#32 := by
  intro i
  have hi := Host.reduce_andi_all _ _ _ _ _ (split_pre E L h).2 i
  have hi' : IntOp.ori (IntOp.cmpi .eq (L i) (broadcastInDim S8192x16 ![] Facts.bcast_S_S8192x16 (constantI S_ 32 0#32) i))
      (IntOp.cmpi .eq (L i) (broadcastInDim S8192x16 ![] Facts.bcast_S_S8192x16 (constantI S_ 32 1#32) i)) = 1#1 := hi
  rw [broadcastInDim_scalar_apply, broadcastInDim_scalar_apply] at hi'
  rcases IntOp.ori_eq_one.1 hi' with h0 | h1
  · exact Or.inl (cmpi_eq_iff.1 h0)
  · exact Or.inr (cmpi_eq_iff.1 h1)

end Cert.PreFacts

end
-- ==== Proof.RefRunS.lean ====
/-
  The reference program's run, stated over its stages.

  The program is a straight line of 65 host operations. It is cut into nine consecutive stretches; the contents after
  each stretch hold, at the few buffers a later stretch still reads, the stage functions of the two arguments (the
  `val_…` of the module that reads the program one operation at a time). A stretch is read from an ARBITRARY
  valuation that holds the stages it takes over, so no stage is ever written out twice. Folding the nine stretches puts
  the last stage in the result buffer, and the run follows from the rule for a straight line of host operations.
-/
import proofs.«421964_j23673859736135_3_alg».proof.Proof.RefRead
import Idealize.ShloMosaic.Lib.StableHlo.Run

noncomputable section

namespace Cert.ReferenceIdeal.RunS

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The nine stretches -/

/-- Operations 1 to 5: the similarity matrix (transpose, product, the broadcast temperature, the quotient). -/
abbrev s1 : List (HloOp τ sig (Elt F)) :=
  [ unary main_arg0 main_v0 ((transpose S256x8192 [1, 0] · transposes_S8192x256_S256x8192_1_0) : (⟨S8192x256, .f32⟩ : BufTy).Contents (Elt F) → (⟨S256x8192, .f32⟩ : BufTy).Contents (Elt F)),
    binary main_arg0 main_v0 main_v1 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x3D8F5C29#32),
    unary main_cst main_v2 (broadcastInDim S8192x8192 ![] bcast_S_S8192x8192 : (⟨S_, .f32⟩ : BufTy).Contents (Elt F) → (⟨S8192x8192, .f32⟩ : BufTy).Contents (Elt F)),
    binary main_v1 main_v2 main_v3 (Host.divf : (⟨S8192x8192, .f32⟩ : BufTy).Contents (Elt F) → (⟨S8192x8192, .f32⟩ : BufTy).Contents (Elt F) → (⟨S8192x8192, .f32⟩ : BufTy).Contents (Elt F)) ]

/-- Operations 6 to 12: the off-diagonal mask (two iotas, their comparison, its negation). -/
abbrev s2 : List (HloOp τ sig (Elt F)) :=
  [ nullary main_v4 (iotaInDim S8192x8192 32 0),
    nullary main_v5 (iotaInDim S8192x8192 32 1),
    nullary main_c (constantI S_ 32 0#32),
    unary main_c main_v6 (broadcastInDim S8192x8192 ![] bcast_S_S8192x8192 : (⟨S_, .i32⟩ : BufTy).Contents (Elt F) → (⟨S8192x8192, .i32⟩ : BufTy).Contents (Elt F)),
    binary main_v4 main_v6 main_v7 (addi : (⟨S8192x8192, .i32⟩ : BufTy).Contents (Elt F) → (⟨S8192x8192, .i32⟩ : BufTy).Contents (Elt F) → (⟨S8192x8192, .i32⟩ : BufTy).Contents (Elt F)),
    binary main_v7 main_v5 main_v8 (cmpi .eq : (⟨S8192x8192, .i32⟩ : BufTy).Contents (Elt F) → (⟨S8192x8192, .i32⟩ : BufTy).Contents (Elt F) → (⟨S8192x8192, .i1⟩ : BufTy).Contents (Elt F)),
    unary main_v8 main_v9 (noti : (⟨S8192x8192, .i1⟩ : BufTy).Contents (Elt F) → (⟨S8192x8192, .i1⟩ : BufTy).Contents (Elt F)) ]

/-- Operations 13 to 19: the positives' mask (the converted labels, their product, its sign, off the diagonal). -/
abbrev s3 : List (HloOp τ sig (Elt F)) :=
  [ unary main_arg1 main_v10 (sitofp (F := F) .f32 : (⟨S8192x16, .i32⟩ : BufTy).Contents (Elt F) → (⟨S8192x16, .f32⟩ : BufTy).Contents (Elt F)),
    unary main_v10 main_v11 ((transpose S16x8192 [1, 0] · transposes_S8192x16_S16x8192_1_0) : (⟨S8192x16, .f32⟩ : BufTy).Contents (Elt F) → (⟨S16x8192, .f32⟩ : BufTy).Contents (Elt F)),
    binary main_v10 main_v11 main_v12 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)),
    nullary main_cst_0 (constant S_ .f32 0x00000000#32),
    unary main_cst_0 main_v13 (broadcastInDim S8192x8192 ![] bcast_S_S8192x8192 : (⟨S_, .f32⟩ : BufTy).Contents (Elt F) → (⟨S8192x8192, .f32⟩ : BufTy).Contents (Elt F)),
    binary main_v12 main_v13 main_v14 (cmpf (F := F) .ogt : (⟨S8192x8192, .f32⟩ : BufTy).Contents (Elt F) → (⟨S8192x8192, .f32⟩ : BufTy).Contents (Elt F) → (⟨S8192x8192, .i1⟩ : BufTy).Contents (Elt F)),
    binary main_v14 main_v9 main_v15 (andi : (⟨S8192x8192, .i1⟩ : BufTy).Contents (Elt F) → (⟨S8192x8192, .i1⟩ : BufTy).Contents (Elt F) → (⟨S8192x8192, .i1⟩ : BufTy).Contents (Elt F)) ]

/-- Operations 20 to 29: the masked similarities, the row maximum, the shifted exponentials. -/
abbrev s4 : List (HloOp τ sig (Elt F)) :=
  [ nullary main_cst_1 (constant S_ .f32 0xFF800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.ternary (TRef.of (T := ⟨S8192x8192, .i1⟩) main_v9) (TRef.of (T := ⟨S8192x8192, .f32⟩) main_v3) (TRef.of (T := ⟨S8192x8192, .f32⟩) main_call0_v1) (TRef.of (T := ⟨S8192x8192, .f32⟩) main_v16) select,
    nullary main_cst_2 (constant S_ .f32 0xFF800000#32),
    binary main_v16 main_cst_2 main_v17 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v17 main_v18 (broadcastInDim S8192x1 ![0] bcast_S8192_S8192x1_0 : (⟨S8192, .f32⟩ : BufTy).Contents (Elt F) → (⟨S8192x1, .f32⟩ : BufTy).Contents (Elt F)),
    unary main_v18 main_v19 (broadcastInDim S8192x8192 ![0, 1] bcast_S8192x1_S8192x8192_0_1 : (⟨S8192x1, .f32⟩ : BufTy).Contents (Elt F) → (⟨S8192x8192, .f32⟩ : BufTy).Contents (Elt F)),
    binary main_v3 main_v19 main_v20 (subf : (⟨S8192x8192, .f32⟩ : BufTy).Contents (Elt F) → (⟨S8192x8192, .f32⟩ : BufTy).Contents (Elt F) → (⟨S8192x8192, .f32⟩ : BufTy).Contents (Elt F)),
    unary main_v20 main_v21 (Host.exp : (⟨S8192x8192, .f32⟩ : BufTy).Contents (Elt F) → (⟨S8192x8192, .f32⟩ : BufTy).Contents (Elt F)) ]

/-- Operations 30 to 35: the exponentials at the positives, summed along the rows. -/
abbrev s5 : List (HloOp τ sig (Elt F)) :=
  [ nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v15) (TRef.of (T := ⟨S8192x8192, .f32⟩) main_v21) (TRef.of (T := ⟨S8192x8192, .f32⟩) main_call1_v1) (TRef.of (T := ⟨S8192x8192, .f32⟩) main_v22) select,
    nullary main_cst_4 (constant S_ .f32 0x00000000#32),
    binary main_v22 main_cst_4 main_v23 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- Operations 36 to 43: the exponentials off the diagonal, summed along the rows; the or of the positives' mask along the rows. -/
abbrev s6 : List (HloOp τ sig (Elt F)) :=
  [ nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v9) (TRef.of (T := ⟨S8192x8192, .f32⟩) main_v21) (TRef.of (T := ⟨S8192x8192, .f32⟩) main_call2_v1) (TRef.of (T := ⟨S8192x8192, .f32⟩) main_v24) select,
    nullary main_cst_6 (constant S_ .f32 0x00000000#32),
    binary main_v24 main_cst_6 main_v25 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_7 (constantI S_ 1 0#1),
    binary main_v15 main_c_7 main_v26 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)) ]

/-- Operations 44 to 53: the row losses (the guarded numerator, the denominator, quotient, logarithm, negation). -/
abbrev s7 : List (HloOp τ sig (Elt F)) :=
  [ nullary main_cst_8 (constant S_ .f32 0x3F800000#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v26) (TRef.of (T := ⟨S8192, .f32⟩) main_v23) (TRef.of (T := ⟨S8192, .f32⟩) main_call3_v1) (TRef.of (T := ⟨S8192, .f32⟩) main_v27) select,
    nullary main_cst_9 (constant S_ .f32 0x322BCC77#32),
    unary main_cst_9 main_v28 (broadcastInDim S8192 ![] bcast_S_S8192 : (⟨S_, .f32⟩ : BufTy).Contents (Elt F) → (⟨S8192, .f32⟩ : BufTy).Contents (Elt F)),
    binary main_v25 main_v28 main_v29 (addf : (⟨S8192, .f32⟩ : BufTy).Contents (Elt F) → (⟨S8192, .f32⟩ : BufTy).Contents (Elt F) → (⟨S8192, .f32⟩ : BufTy).Contents (Elt F)),
    binary main_v27 main_v29 main_v30 (Host.divf : (⟨S8192, .f32⟩ : BufTy).Contents (Elt F) → (⟨S8192, .f32⟩ : BufTy).Contents (Elt F) → (⟨S8192, .f32⟩ : BufTy).Contents (Elt F)),
    unary main_v30 main_v31 (Host.log : (⟨S8192, .f32⟩ : BufTy).Contents (Elt F) → (⟨S8192, .f32⟩ : BufTy).Contents (Elt F)),
    unary main_v31 main_v32 (Host.negf : (⟨S8192, .f32⟩ : BufTy).Contents (Elt F) → (⟨S8192, .f32⟩ : BufTy).Contents (Elt F)) ]

/-- Operations 54 to 58: the number of rows with a positive, at least one. -/
abbrev s8 : List (HloOp τ sig (Elt F)) :=
  [ unary main_v26 main_v33 (uitofp (F := F) .f32 : (⟨S8192, .i1⟩ : BufTy).Contents (Elt F) → (⟨S8192, .f32⟩ : BufTy).Contents (Elt F)),
    nullary main_cst_10 (constant S_ .f32 0x00000000#32),
    binary main_v33 main_cst_10 main_v34 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_11 (constant S_ .f32 0x3F800000#32),
    binary main_v34 main_cst_11 main_v35 (maximumf : (⟨S_, .f32⟩ : BufTy).Contents (Elt F) → (⟨S_, .f32⟩ : BufTy).Contents (Elt F) → (⟨S_, .f32⟩ : BufTy).Contents (Elt F)) ]

/-- Operations 59 to 65: the guarded row losses, summed, over that number. -/
abbrev s9 : List (HloOp τ sig (Elt F)) :=
  [ nullary main_cst_12 (constant S_ .f32 0x00000000#32),
    TRef.unary (TRef.of (T := ⟨S_, .f32⟩) main_cst_12) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v26) (TRef.of (T := ⟨S8192, .f32⟩) main_v32) (TRef.of (T := ⟨S8192, .f32⟩) main_call4_v1) (TRef.of (T := ⟨S8192, .f32⟩) main_v36) select,
    nullary main_cst_13 (constant S_ .f32 0x00000000#32),
    binary main_v36 main_cst_13 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    binary main_v37 main_v35 main_v38 (Host.divf : (⟨S_, .f32⟩ : BufTy).Contents (Elt F) → (⟨S_, .f32⟩ : BufTy).Contents (Elt F) → (⟨S_, .f32⟩ : BufTy).Contents (Elt F)) ]

/-! ## Each stretch, from a valuation that holds the stages it takes over -/

theorem s1_v3 (V : Valuation τ sig (Elt F)) (x0 : (⟨S8192x256, .f32⟩ : BufTy).Contents (Elt F)) (h0 : V (Proc.devRef .tc main_arg0) = x0) :
    after s1 V (Proc.devRef .tc main_v3) = val_main_v3 (F := F) x0 := by
  after_results
  try simp only [TRef.ofBuf, TRef.toBuf, cast_eq]
  rw [h0]
  rfl
theorem s1_arg1 (V : Valuation τ sig (Elt F)) : after s1 V (Proc.devRef .tc main_arg1) = V (Proc.devRef .tc main_arg1) := by
  after_results
theorem s2_v9 (V : Valuation τ sig (Elt F)) : after s2 V (Proc.devRef .tc main_v9) = val_main_v9 (F := F) := by
  after_results
  try simp only [TRef.ofBuf, TRef.toBuf, cast_eq]
  rfl
theorem s2_v3 (V : Valuation τ sig (Elt F)) : after s2 V (Proc.devRef .tc main_v3) = V (Proc.devRef .tc main_v3) := by
  after_results
theorem s2_arg1 (V : Valuation τ sig (Elt F)) : after s2 V (Proc.devRef .tc main_arg1) = V (Proc.devRef .tc main_arg1) := by
  after_results
theorem s3_v15 (V : Valuation τ sig (Elt F)) (x1 : (⟨S8192x16, .i32⟩ : BufTy).Contents (Elt F)) (h1 : V (Proc.devRef .tc main_arg1) = x1) (h9 : V (Proc.devRef .tc main_v9) = val_main_v9 (F := F)) :
    after s3 V (Proc.devRef .tc main_v15) = val_main_v15 (F := F) x1 := by
  after_results
  try simp only [TRef.ofBuf, TRef.toBuf, cast_eq]
  rw [h1, h9]
  rfl
theorem s3_v3 (V : Valuation τ sig (Elt F)) : after s3 V (Proc.devRef .tc main_v3) = V (Proc.devRef .tc main_v3) := by
  after_results
theorem s3_v9 (V : Valuation τ sig (Elt F)) : after s3 V (Proc.devRef .tc main_v9) = V (Proc.devRef .tc main_v9) := by
  after_results
theorem s4_v21 (V : Valuation τ sig (Elt F)) (x0 : (⟨S8192x256, .f32⟩ : BufTy).Contents (Elt F)) (h9 : V (Proc.devRef .tc main_v9) = val_main_v9 (F := F)) (h3 : V (Proc.devRef .tc main_v3) = val_main_v3 (F := F) x0) :
    after s4 V (Proc.devRef .tc main_v21) = val_main_v21 (F := F) x0 := by
  after_results
  try simp only [TRef.ofBuf, TRef.toBuf, cast_eq]
  rw [h9, h3]
  rfl
theorem s4_v9 (V : Valuation τ sig (Elt F)) : after s4 V (Proc.devRef .tc main_v9) = V (Proc.devRef .tc main_v9) := by
  after_results
theorem s4_v15 (V : Valuation τ sig (Elt F)) : after s4 V (Proc.devRef .tc main_v15) = V (Proc.devRef .tc main_v15) := by
  after_results
theorem s5_v23 (V : Valuation τ sig (Elt F)) (x0 : (⟨S8192x256, .f32⟩ : BufTy).Contents (Elt F)) (x1 : (⟨S8192x16, .i32⟩ : BufTy).Contents (Elt F)) (h15 : V (Proc.devRef .tc main_v15) = val_main_v15 (F := F) x1) (h21 : V (Proc.devRef .tc main_v21) = val_main_v21 (F := F) x0) :
    after s5 V (Proc.devRef .tc main_v23) = val_main_v23 (F := F) x0 x1 := by
  after_results
  try simp only [TRef.ofBuf, TRef.toBuf, cast_eq]
  rw [h15, h21]
  rfl
theorem s5_v9 (V : Valuation τ sig (Elt F)) : after s5 V (Proc.devRef .tc main_v9) = V (Proc.devRef .tc main_v9) := by
  after_results
theorem s5_v15 (V : Valuation τ sig (Elt F)) : after s5 V (Proc.devRef .tc main_v15) = V (Proc.devRef .tc main_v15) := by
  after_results
theorem s5_v21 (V : Valuation τ sig (Elt F)) : after s5 V (Proc.devRef .tc main_v21) = V (Proc.devRef .tc main_v21) := by
  after_results
theorem s6_v25 (V : Valuation τ sig (Elt F)) (x0 : (⟨S8192x256, .f32⟩ : BufTy).Contents (Elt F)) (h9 : V (Proc.devRef .tc main_v9) = val_main_v9 (F := F)) (h21 : V (Proc.devRef .tc main_v21) = val_main_v21 (F := F) x0) :
    after s6 V (Proc.devRef .tc main_v25) = val_main_v25 (F := F) x0 := by
  after_results
  try simp only [TRef.ofBuf, TRef.toBuf, cast_eq]
  rw [h9, h21]
  rfl
theorem s6_v26 (V : Valuation τ sig (Elt F)) (x1 : (⟨S8192x16, .i32⟩ : BufTy).Contents (Elt F)) (h15 : V (Proc.devRef .tc main_v15) = val_main_v15 (F := F) x1) :
    after s6 V (Proc.devRef .tc main_v26) = val_main_v26 (F := F) x1 := by
  after_results
  try simp only [TRef.ofBuf, TRef.toBuf, cast_eq]
  rw [h15]
  rfl
theorem s6_v23 (V : Valuation τ sig (Elt F)) : after s6 V (Proc.devRef .tc main_v23) = V (Proc.devRef .tc main_v23) := by
  after_results
theorem s7_v32 (V : Valuation τ sig (Elt F)) (x0 : (⟨S8192x256, .f32⟩ : BufTy).Contents (Elt F)) (x1 : (⟨S8192x16, .i32⟩ : BufTy).Contents (Elt F)) (h26 : V (Proc.devRef .tc main_v26) = val_main_v26 (F := F) x1) (h23 : V (Proc.devRef .tc main_v23) = val_main_v23 (F := F) x0 x1) (h25 : V (Proc.devRef .tc main_v25) = val_main_v25 (F := F) x0) :
    after s7 V (Proc.devRef .tc main_v32) = val_main_v32 (F := F) x0 x1 := by
  after_results
  try simp only [TRef.ofBuf, TRef.toBuf, cast_eq]
  rw [h26, h23, h25]
  rfl
theorem s7_v26 (V : Valuation τ sig (Elt F)) : after s7 V (Proc.devRef .tc main_v26) = V (Proc.devRef .tc main_v26) := by
  after_results
theorem s8_v35 (V : Valuation τ sig (Elt F)) (x1 : (⟨S8192x16, .i32⟩ : BufTy).Contents (Elt F)) (h26 : V (Proc.devRef .tc main_v26) = val_main_v26 (F := F) x1) :
    after s8 V (Proc.devRef .tc main_v35) = val_main_v35 (F := F) x1 := by
  after_results
  try simp only [TRef.ofBuf, TRef.toBuf, cast_eq]
  rw [h26]
  rfl
theorem s8_v26 (V : Valuation τ sig (Elt F)) : after s8 V (Proc.devRef .tc main_v26) = V (Proc.devRef .tc main_v26) := by
  after_results
theorem s8_v32 (V : Valuation τ sig (Elt F)) : after s8 V (Proc.devRef .tc main_v32) = V (Proc.devRef .tc main_v32) := by
  after_results
theorem s9_v38 (V : Valuation τ sig (Elt F)) (x0 : (⟨S8192x256, .f32⟩ : BufTy).Contents (Elt F)) (x1 : (⟨S8192x16, .i32⟩ : BufTy).Contents (Elt F)) (h26 : V (Proc.devRef .tc main_v26) = val_main_v26 (F := F) x1) (h32 : V (Proc.devRef .tc main_v32) = val_main_v32 (F := F) x0 x1) (h35 : V (Proc.devRef .tc main_v35) = val_main_v35 (F := F) x1) :
    after s9 V (Proc.devRef .tc main_v38) = val_main_v38 (F := F) x0 x1 := by
  after_results
  try simp only [TRef.ofBuf, TRef.toBuf, cast_eq]
  rw [h26, h32, h35]
  rfl

/-! ## The nine stretches folded -/

/-- The fold over a concatenation is the fold over its second part from the fold over its first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The program's operations are the nine stretches in order. -/
theorem ops_eq : (ValueP.ops : List (HloOp τ sig (Elt F))) = s1 ++ (s2 ++ (s3 ++ (s4 ++ (s5 ++ (s6 ++ (s7 ++ (s8 ++ s9))))))) := rfl

/-- The contents after the first k stretches. -/
def V1 (W : Valuation τ sig (Elt F)) : Valuation τ sig (Elt F) := after s1 W
def V2 (W : Valuation τ sig (Elt F)) : Valuation τ sig (Elt F) := after s2 (V1 W)
def V3 (W : Valuation τ sig (Elt F)) : Valuation τ sig (Elt F) := after s3 (V2 W)
def V4 (W : Valuation τ sig (Elt F)) : Valuation τ sig (Elt F) := after s4 (V3 W)
def V5 (W : Valuation τ sig (Elt F)) : Valuation τ sig (Elt F) := after s5 (V4 W)
def V6 (W : Valuation τ sig (Elt F)) : Valuation τ sig (Elt F) := after s6 (V5 W)
def V7 (W : Valuation τ sig (Elt F)) : Valuation τ sig (Elt F) := after s7 (V6 W)
def V8 (W : Valuation τ sig (Elt F)) : Valuation τ sig (Elt F) := after s8 (V7 W)

theorem after_ops_fold (W : Valuation τ sig (Elt F)) : after ValueP.ops W = after s9 (V8 W) := by
  rw [ops_eq, after_app, after_app, after_app, after_app, after_app, after_app, after_app, after_app]
  rfl

/-! ## The stages held after each stretch -/

theorem V1_v3 (W : Valuation τ sig (Elt F)) : V1 W (Proc.devRef .tc main_v3) = val_main_v3 (F := F) (W (Proc.devRef .tc main_arg0)) := s1_v3 W _ rfl
theorem V1_arg1 (W : Valuation τ sig (Elt F)) : V1 W (Proc.devRef .tc main_arg1) = W (Proc.devRef .tc main_arg1) := s1_arg1 W
theorem V2_v9 (W : Valuation τ sig (Elt F)) : V2 W (Proc.devRef .tc main_v9) = val_main_v9 (F := F) := s2_v9 (V1 W)
theorem V2_v3 (W : Valuation τ sig (Elt F)) : V2 W (Proc.devRef .tc main_v3) = val_main_v3 (F := F) (W (Proc.devRef .tc main_arg0)) := (s2_v3 (V1 W)).trans (V1_v3 W)
theorem V2_arg1 (W : Valuation τ sig (Elt F)) : V2 W (Proc.devRef .tc main_arg1) = W (Proc.devRef .tc main_arg1) := (s2_arg1 (V1 W)).trans (V1_arg1 W)
theorem V3_v15 (W : Valuation τ sig (Elt F)) : V3 W (Proc.devRef .tc main_v15) = val_main_v15 (F := F) (W (Proc.devRef .tc main_arg1)) := s3_v15 (V2 W) _ (V2_arg1 W) (V2_v9 W)
theorem V3_v3 (W : Valuation τ sig (Elt F)) : V3 W (Proc.devRef .tc main_v3) = val_main_v3 (F := F) (W (Proc.devRef .tc main_arg0)) := (s3_v3 (V2 W)).trans (V2_v3 W)
theorem V3_v9 (W : Valuation τ sig (Elt F)) : V3 W (Proc.devRef .tc main_v9) = val_main_v9 (F := F) := (s3_v9 (V2 W)).trans (V2_v9 W)
theorem V4_v21 (W : Valuation τ sig (Elt F)) : V4 W (Proc.devRef .tc main_v21) = val_main_v21 (F := F) (W (Proc.devRef .tc main_arg0)) := s4_v21 (V3 W) _ (V3_v9 W) (V3_v3 W)
theorem V4_v9 (W : Valuation τ sig (Elt F)) : V4 W (Proc.devRef .tc main_v9) = val_main_v9 (F := F) := (s4_v9 (V3 W)).trans (V3_v9 W)
theorem V4_v15 (W : Valuation τ sig (Elt F)) : V4 W (Proc.devRef .tc main_v15) = val_main_v15 (F := F) (W (Proc.devRef .tc main_arg1)) := (s4_v15 (V3 W)).trans (V3_v15 W)
theorem V5_v23 (W : Valuation τ sig (Elt F)) : V5 W (Proc.devRef .tc main_v23) = val_main_v23 (F := F) (W (Proc.devRef .tc main_arg0)) (W (Proc.devRef .tc main_arg1)) := s5_v23 (V4 W) _ _ (V4_v15 W) (V4_v21 W)
theorem V5_v9 (W : Valuation τ sig (Elt F)) : V5 W (Proc.devRef .tc main_v9) = val_main_v9 (F := F) := (s5_v9 (V4 W)).trans (V4_v9 W)
theorem V5_v15 (W : Valuation τ sig (Elt F)) : V5 W (Proc.devRef .tc main_v15) = val_main_v15 (F := F) (W (Proc.devRef .tc main_arg1)) := (s5_v15 (V4 W)).trans (V4_v15 W)
theorem V5_v21 (W : Valuation τ sig (Elt F)) : V5 W (Proc.devRef .tc main_v21) = val_main_v21 (F := F) (W (Proc.devRef .tc main_arg0)) := (s5_v21 (V4 W)).trans (V4_v21 W)
theorem V6_v25 (W : Valuation τ sig (Elt F)) : V6 W (Proc.devRef .tc main_v25) = val_main_v25 (F := F) (W (Proc.devRef .tc main_arg0)) := s6_v25 (V5 W) _ (V5_v9 W) (V5_v21 W)
theorem V6_v26 (W : Valuation τ sig (Elt F)) : V6 W (Proc.devRef .tc main_v26) = val_main_v26 (F := F) (W (Proc.devRef .tc main_arg1)) := s6_v26 (V5 W) _ (V5_v15 W)
theorem V6_v23 (W : Valuation τ sig (Elt F)) : V6 W (Proc.devRef .tc main_v23) = val_main_v23 (F := F) (W (Proc.devRef .tc main_arg0)) (W (Proc.devRef .tc main_arg1)) := (s6_v23 (V5 W)).trans (V5_v23 W)
theorem V7_v32 (W : Valuation τ sig (Elt F)) : V7 W (Proc.devRef .tc main_v32) = val_main_v32 (F := F) (W (Proc.devRef .tc main_arg0)) (W (Proc.devRef .tc main_arg1)) := s7_v32 (V6 W) _ _ (V6_v26 W) (V6_v23 W) (V6_v25 W)
theorem V7_v26 (W : Valuation τ sig (Elt F)) : V7 W (Proc.devRef .tc main_v26) = val_main_v26 (F := F) (W (Proc.devRef .tc main_arg1)) := (s7_v26 (V6 W)).trans (V6_v26 W)
theorem V8_v35 (W : Valuation τ sig (Elt F)) : V8 W (Proc.devRef .tc main_v35) = val_main_v35 (F := F) (W (Proc.devRef .tc main_arg1)) := s8_v35 (V7 W) _ (V7_v26 W)
theorem V8_v26 (W : Valuation τ sig (Elt F)) : V8 W (Proc.devRef .tc main_v26) = val_main_v26 (F := F) (W (Proc.devRef .tc main_arg1)) := (s8_v26 (V7 W)).trans (V7_v26 W)
theorem V8_v32 (W : Valuation τ sig (Elt F)) : V8 W (Proc.devRef .tc main_v32) = val_main_v32 (F := F) (W (Proc.devRef .tc main_arg0)) (W (Proc.devRef .tc main_arg1)) := (s8_v32 (V7 W)).trans (V7_v32 W)

/-! ## The result buffer and the arguments after the whole line -/

/-- After the 65 operations the result buffer holds the last stage of the two arguments. -/
theorem after_ops (W : Valuation τ sig (Elt F)) :
    after (ValueP.ops (F := F)) W (Proc.devRef .tc main_v38) = val_main_v38 (F := F) (W (Proc.devRef .tc main_arg0)) (W (Proc.devRef .tc main_arg1)) :=
  (congrFun (after_ops_fold W) _).trans (s9_v38 (V8 W) _ _ (V8_v26 W) (V8_v32 W) (V8_v35 W))

/-- No operation writes the first argument. -/
theorem after_ops_arg0 (W : Valuation τ sig (Elt F)) : after (ValueP.ops (F := F)) W (Proc.devRef .tc main_arg0) = W (Proc.devRef .tc main_arg0) := by
  after_results
/-- No operation writes the second argument. -/
theorem after_ops_arg1 (W : Valuation τ sig (Elt F)) : after (ValueP.ops (F := F)) W (Proc.devRef .tc main_arg1) = W (Proc.devRef .tc main_arg1) := by
  after_results

/-! ## The run -/

/-- Every operation determines its results: stretch by stretch. -/
theorem s1_fresh : ∀ op ∈ (s1 : List (HloOp τ sig (Elt F))), op.fresh = ∅ := by
  intro _ h; (repeat (cases h with | head => rfl | tail _ h => ?_)); exact nomatch h
theorem s2_fresh : ∀ op ∈ (s2 : List (HloOp τ sig (Elt F))), op.fresh = ∅ := by
  intro _ h; (repeat (cases h with | head => rfl | tail _ h => ?_)); exact nomatch h
theorem s3_fresh : ∀ op ∈ (s3 : List (HloOp τ sig (Elt F))), op.fresh = ∅ := by
  intro _ h; (repeat (cases h with | head => rfl | tail _ h => ?_)); exact nomatch h
theorem s4_fresh : ∀ op ∈ (s4 : List (HloOp τ sig (Elt F))), op.fresh = ∅ := by
  intro _ h; (repeat (cases h with | head => rfl | tail _ h => ?_)); exact nomatch h
theorem s5_fresh : ∀ op ∈ (s5 : List (HloOp τ sig (Elt F))), op.fresh = ∅ := by
  intro _ h; (repeat (cases h with | head => rfl | tail _ h => ?_)); exact nomatch h
theorem s6_fresh : ∀ op ∈ (s6 : List (HloOp τ sig (Elt F))), op.fresh = ∅ := by
  intro _ h; (repeat (cases h with | head => rfl | tail _ h => ?_)); exact nomatch h
theorem s7_fresh : ∀ op ∈ (s7 : List (HloOp τ sig (Elt F))), op.fresh = ∅ := by
  intro _ h; (repeat (cases h with | head => rfl | tail _ h => ?_)); exact nomatch h
theorem s8_fresh : ∀ op ∈ (s8 : List (HloOp τ sig (Elt F))), op.fresh = ∅ := by
  intro _ h; (repeat (cases h with | head => rfl | tail _ h => ?_)); exact nomatch h
theorem s9_fresh : ∀ op ∈ (s9 : List (HloOp τ sig (Elt F))), op.fresh = ∅ := by
  intro _ h; (repeat (cases h with | head => rfl | tail _ h => ?_)); exact nomatch h

theorem ops_fresh : ∀ op ∈ (ValueP.ops : List (HloOp τ sig (Elt F))), op.fresh = ∅ := by
  intro op h
  rw [ops_eq] at h
  simp only [List.mem_append] at h
  rcases h with h | h | h | h | h | h | h | h | h
  exacts [s1_fresh op h, s2_fresh op h, s3_fresh op h, s4_fresh op h, s5_fresh op h, s6_fresh op h, s7_fresh op h,
    s8_fresh op h, s9_fresh op h]

/-- On every device, for any float values, from any memory with zero counters: every weakly fair execution of @main
    terminates with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = val_main_v38 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (after_ops (launchContents m c)),
      (h c main_arg0).trans (after_ops_arg0 (launchContents m c)),
      (h c main_arg1).trans (after_ops_arg1 (launchContents m c))⟩)
    (run_seq ValueP.scopedRefs_eq ValueP.scopedSems_eq defs main (fun _ => ValueP.ops) ValueP.main_eq
      (fun _ => ValueP.ops_sub) m ρ (fun _ => ops_fresh))

end Cert.ReferenceIdeal.RunS

end
-- ==== Proof.RefValue.lean ====
import proofs.«421964_j23673859736135_3_alg».proof.Proof.RefRead
import proofs.«421964_j23673859736135_3_alg».proof.Proof.Spec
import Idealize.ShloMosaic.PureOps.Reduce
import Idealize.ShloMosaic.PureOps.Ideal.Laws
import Idealize.ShloMosaic.Lib.Affine
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.ValueIdx

theorem ofBits_neg_inf : Ideal.ofBits .f32 0xFF800000#32 = ⊥ := by simp [Ideal.ofBits, Ideal.ieee]

theorem ofNat_inj_small {a b : Nat} (ha : a < 8192) (hb : b < 8192) (h : BitVec.ofNat 32 a = BitVec.ofNat 32 b) :
    a = b := by
  have e := congrArg BitVec.toNat h
  simp only [BitVec.toNat_ofNat] at e
  omega

theorem fold_ori_eq_one {ι : Type} [DecidableEq ι] (s : Finset ι) (f : ι → BitVec 1) :
    s.fold IntOp.ori 0#1 f = 1#1 ↔ ∃ k ∈ s, f k = 1#1 := by
  induction s using Finset.induction_on with
  | empty =>
    rw [Finset.fold_empty]
    exact ⟨fun h => absurd h (by decide), fun ⟨_, hk, _⟩ => absurd hk (Finset.notMem_empty _)⟩
  | insert a s ha ih =>
    rw [Finset.fold_insert ha, IntOp.ori_eq_one, ih]
    constructor
    · rintro (h | ⟨k, hk, hf⟩)
      · exact ⟨a, Finset.mem_insert_self a s, h⟩
      · exact ⟨k, Finset.mem_insert_of_mem hk, hf⟩
    · rintro ⟨k, hk, hf⟩
      rcases Finset.mem_insert.1 hk with rfl | hk
      · exact Or.inl hf
      · exact Or.inr ⟨k, hk, hf⟩

theorem sim_at (x0 : (⟨S8192x256, .f32⟩ : BufTy).Contents (Elt Ideal)) (r c : Fin 8192) :
    val_main_v3 (F := Ideal) x0 (ix2 r c) = Spec.sim x0 r c := by
  rw [val_main_v3_apply, val_main_v1_apply, val_main_v2_apply, val_main_cst_apply, Ideal.hostDivf_def, Ideal.ofBits_def]
  unfold Spec.sim Spec.temp
  refine congrArg (Ideal.div · _) (Finset.sum_congr rfl fun k _ => ?_)
  rw [val_main_v0_apply]
  have el : lidx_main_v1 (ix2 r c) k = ix2 r k :=
    funext fun a => Fin.ext (by match a with | ⟨0, _⟩ => rfl | ⟨1, _⟩ => rfl)
  have er : idx_main_v0 (ridx_main_v1 (ix2 r c) k) = ix2 c k :=
    funext fun a => Fin.ext (by match a with | ⟨0, _⟩ => rfl | ⟨1, _⟩ => rfl)
  rw [el, er]

theorem offdiag_at (r c : Fin 8192) :
    val_main_v9 (F := Ideal) (ix2 r c) = if c ≠ r then 1#1 else 0#1 := by
  rw [val_main_v9_apply, val_main_v8_apply, val_main_v7_apply, val_main_v4_apply, val_main_v5_apply, val_main_v6_apply,
    val_main_c_apply]
  show ~~~(IntOp.cmpi .eq (IntOp.addi (BitVec.ofNat 32 r.val) 0#32) (BitVec.ofNat 32 c.val)) = _
  have h0 : IntOp.addi (BitVec.ofNat 32 r.val) 0#32 = BitVec.ofNat 32 r.val := BitVec.add_zero _
  rw [h0]
  by_cases h : c = r
  · subst h
    rw [if_neg (not_not.2 rfl)]
    have e : IntOp.cmpi .eq (BitVec.ofNat 32 c.val) (BitVec.ofNat 32 c.val) = 1#1 := by
      unfold IntOp.cmpi; simp
    rw [e]; decide
  · rw [if_pos h]
    have e : IntOp.cmpi .eq (BitVec.ofNat 32 r.val) (BitVec.ofNat 32 c.val) = 0#1 := by
      refine eq_zero_of_ne_one fun h1 => h ?_
      have h2 : BitVec.ofNat 32 r.val = BitVec.ofNat 32 c.val := by
        have h1' : BitVec.ofBool (BitVec.ofNat 32 r.val == BitVec.ofNat 32 c.val) = 1#1 := h1
        refine Classical.byContradiction fun hne => ?_
        rw [beq_eq_false_iff_ne.2 hne] at h1'
        exact absurd h1' (by decide)
      exact Fin.ext (ofNat_inj_small c.isLt r.isLt h2.symm)
    rw [e]; decide

theorem simOff_at (x0 : (⟨S8192x256, .f32⟩ : BufTy).Contents (Elt Ideal)) (r c : Fin 8192) :
    val_main_v16 (F := Ideal) x0 (ix2 r c) = Spec.simOff x0 r c := by
  rw [val_main_v16_apply, offdiag_at, sim_at, val_main_call0_v1_apply, val_main_call0_v0_apply, val_main_cst_1_apply,
    Ideal.ofBits_def, ofBits_neg_inf]
  unfold Spec.simOff
  by_cases h : c ≠ r
  · rw [if_pos h, if_pos h, select_one]
  · rw [if_neg h, if_neg h, select_zero]

theorem rowmax_at (x0 : (⟨S8192x256, .f32⟩ : BufTy).Contents (Elt Ideal)) (r : Fin 8192) :
    val_main_v17 (F := Ideal) x0 (ix1 r) = Spec.rowmax x0 r := by
  have h : S8192x8192.Reduces [1] S8192 := by decide
  unfold val_main_v17
  rw [Host.reduce_eq_fold_single (FloatOps.maximumf (F := Ideal) (φ := .f32)) (val_main_v16 (F := Ideal) x0)
    (val_main_cst_2 (F := Ideal)) reducesTo_S8192x8192_S8192_d1 h h_S_ (ix1 r), val_main_cst_2_apply, Ideal.ofBits_def,
    ofBits_neg_inf]
  have hf : (val_main_v16 (F := Ideal) x0 ∘ h.lift (ix1 r)) = fun k : Fin 8192 => Spec.simOff x0 r k :=
    funext fun k : Fin 8192 => by
      have e : h.lift (ix1 r) k = ix2 r k :=
        funext fun a => Fin.ext (by match a with | ⟨0, _⟩ => rfl | ⟨1, _⟩ => rfl)
      show val_main_v16 (F := Ideal) x0 (h.lift (ix1 r) k) = _
      rw [e]
      exact simOff_at x0 r k
  unfold Spec.rowmax
  exact congrArg (fun f => Finset.fold max (⊥ : EReal) f (Finset.univ : Finset (Fin 8192))) hf

theorem expo_at (x0 : (⟨S8192x256, .f32⟩ : BufTy).Contents (Elt Ideal)) (r c : Fin 8192) :
    val_main_v21 (F := Ideal) x0 (ix2 r c) = Spec.expo x0 r c := by
  rw [val_main_v21_apply, val_main_v20_apply, sim_at, val_main_v19_apply, val_main_v18_apply]
  have e : idx_main_v18 (idx_main_v19 (ix2 r c)) = ix1 r :=
    funext fun a => Fin.ext (by match a with | ⟨0, _⟩ => rfl)
  rw [e, rowmax_at, Ideal.hostUnary_exp_def, Ideal.subf_def]
  rfl

theorem negVec_eq (x0 : (⟨S8192x256, .f32⟩ : BufTy).Contents (Elt Ideal)) :
    val_main_v25 (F := Ideal) x0 = Spec.negVec x0 := by
  funext i
  obtain ⟨r, rfl⟩ : ∃ r : Fin 8192, i = ix1 r := ⟨i 0, eq_ix1 i⟩
  rw [val_main_v25_apply, val_main_cst_6_apply, Ideal.ofBits_def, Ideal.ofBits_zero_f32, zero_add]
  show _ = Spec.negExp x0 r
  unfold Spec.negExp
  refine Finset.sum_congr rfl fun k _ => ?_
  have e : idx_main_v25 (ix1 r) k = ix2 r k :=
    funext fun a => Fin.ext (by match a with | ⟨0, _⟩ => rfl | ⟨1, _⟩ => rfl)
  rw [e, val_main_v24_apply, offdiag_at, expo_at, val_main_call2_v1_apply, val_main_call2_v0_apply, val_main_cst_5_apply,
    Ideal.ofBits_def, Ideal.ofBits_zero_f32]
  by_cases h : k ≠ r
  · rw [if_pos h, if_pos h, select_one]
  · rw [if_neg h, if_neg h, select_zero]

theorem labdot_at (x1 : (⟨S8192x16, .i32⟩ : BufTy).Contents (Elt Ideal)) (r c : Fin 8192) :
    val_main_v12 (F := Ideal) x1 (ix2 r c) = Spec.labdot x1 r c := by
  rw [val_main_v12_apply]
  unfold Spec.labdot Spec.lab
  refine Finset.sum_congr rfl fun k _ => ?_
  rw [val_main_v11_apply, val_main_v10_apply, val_main_v10_apply]
  have el : lidx_main_v12 (ix2 r c) k = ix2 r k :=
    funext fun a => Fin.ext (by match a with | ⟨0, _⟩ => rfl | ⟨1, _⟩ => rfl)
  have er : idx_main_v11 (ridx_main_v12 (ix2 r c) k) = ix2 c k :=
    funext fun a => Fin.ext (by match a with | ⟨0, _⟩ => rfl | ⟨1, _⟩ => rfl)
  rw [el, er]
  rfl

theorem posMask_at (x1 : (⟨S8192x16, .i32⟩ : BufTy).Contents (Elt Ideal)) (r c : Fin 8192) :
    val_main_v15 (F := Ideal) x1 (ix2 r c) = if Spec.isPos x1 r c then 1#1 else 0#1 := by
  rw [val_main_v15_apply, val_main_v14_apply, labdot_at, val_main_v13_apply, val_main_cst_0_apply, offdiag_at,
    Ideal.ofBits_def, Ideal.ofBits_zero_f32]
  show IntOp.andi (BitVec.ofBool (decide ((0 : EReal) < Spec.labdot x1 r c))) (if c ≠ r then 1#1 else 0#1) = _
  by_cases h1 : (0 : EReal) < Spec.labdot x1 r c
  · rw [decide_eq_true h1]
    by_cases h2 : c ≠ r
    · rw [if_pos h2, if_pos (show Spec.isPos x1 r c from ⟨h1, h2⟩)]; decide
    · rw [if_neg h2, if_neg (show ¬Spec.isPos x1 r c from fun h => h2 h.2)]; decide
  · rw [decide_eq_false h1, if_neg (show ¬Spec.isPos x1 r c from fun h => h1 h.1)]
    by_cases h2 : c ≠ r
    · rw [if_pos h2]; decide
    · rw [if_neg h2]; decide

theorem posVec_eq (x0 : (⟨S8192x256, .f32⟩ : BufTy).Contents (Elt Ideal))
    (x1 : (⟨S8192x16, .i32⟩ : BufTy).Contents (Elt Ideal)) :
    val_main_v23 (F := Ideal) x0 x1 = Spec.posVec x0 x1 := by
  funext i
  obtain ⟨r, rfl⟩ : ∃ r : Fin 8192, i = ix1 r := ⟨i 0, eq_ix1 i⟩
  rw [val_main_v23_apply, val_main_cst_4_apply, Ideal.ofBits_def, Ideal.ofBits_zero_f32, zero_add]
  show _ = Spec.posExp x0 x1 r
  unfold Spec.posExp
  refine Finset.sum_congr rfl fun k _ => ?_
  have e : idx_main_v23 (ix1 r) k = ix2 r k :=
    funext fun a => Fin.ext (by match a with | ⟨0, _⟩ => rfl | ⟨1, _⟩ => rfl)
  rw [e, val_main_v22_apply, posMask_at, expo_at, val_main_call1_v1_apply, val_main_call1_v0_apply, val_main_cst_3_apply,
    Ideal.ofBits_def, Ideal.ofBits_zero_f32]
  by_cases h : Spec.isPos x1 r k
  · rw [if_pos h, if_pos h, select_one]
  · rw [if_neg h, if_neg h, select_zero]

theorem hasVec_eq (x1 : (⟨S8192x16, .i32⟩ : BufTy).Contents (Elt Ideal)) :
    val_main_v26 (F := Ideal) x1 = Spec.hasVec x1 := by
  funext i
  obtain ⟨r, rfl⟩ : ∃ r : Fin 8192, i = ix1 r := ⟨i 0, eq_ix1 i⟩
  have h : S8192x8192.Reduces [1] S8192 := by decide
  unfold val_main_v26
  rw [Host.reduce_eq_fold_single IntOp.ori (val_main_v15 (F := Ideal) x1) (val_main_c_7 (F := Ideal))
    reducesTo_S8192x8192_S8192_d1 h h_S_ (ix1 r), val_main_c_7_apply]
  have hf : ∀ k : Fin 8192, (val_main_v15 (F := Ideal) x1 ∘ h.lift (ix1 r)) k = if Spec.isPos x1 r k then 1#1 else 0#1 :=
    fun k => by
      have e : h.lift (ix1 r) k = ix2 r k :=
        funext fun a => Fin.ext (by match a with | ⟨0, _⟩ => rfl | ⟨1, _⟩ => rfl)
      show val_main_v15 (F := Ideal) x1 (h.lift (ix1 r) k) = _
      rw [e]
      exact posMask_at x1 r k
  show _ = Spec.hasPos x1 r
  unfold Spec.hasPos
  by_cases hp : ∃ c, Spec.isPos x1 r c
  · rw [if_pos hp]
    obtain ⟨c, hc⟩ := hp
    exact (fold_ori_eq_one _ _).2 ⟨c, Finset.mem_univ _, (hf c).trans (if_pos hc)⟩
  · rw [if_neg hp]
    refine eq_zero_of_ne_one fun h1 => hp ?_
    obtain ⟨k, _, hk⟩ := (fold_ori_eq_one _ _).1 h1
    refine ⟨k, Classical.byContradiction fun hn => ?_⟩
    have e0 := (hf k).symm.trans hk
    rw [if_neg hn] at e0
    exact absurd e0 (by decide)

theorem rowLoss_at (x0 : (⟨S8192x256, .f32⟩ : BufTy).Contents (Elt Ideal))
    (x1 : (⟨S8192x16, .i32⟩ : BufTy).Contents (Elt Ideal)) (j : S8192.Idx) :
    val_main_v36 (F := Ideal) x0 x1 j
      = Scalar.select (Spec.hasVec x1 j)
          (Spec.rowLoss (Spec.hasVec x1 j) (Spec.posVec x0 x1 j) (Spec.negVec x0 j)) (Ideal.ofBits .f32 0x00000000#32) := by
  rw [val_main_v36_apply, val_main_v32_apply, val_main_v31_apply, val_main_v30_apply, val_main_v27_apply, val_main_v29_apply,
    val_main_v28_apply, val_main_cst_9_apply, val_main_call3_v1_apply, val_main_call3_v0_apply, val_main_cst_8_apply,
    val_main_call4_v1_apply, val_main_call4_v0_apply, val_main_cst_12_apply, hasVec_eq, posVec_eq, negVec_eq]
  rfl

theorem ref_value (x0 : (⟨S8192x256, .f32⟩ : BufTy).Contents (Elt Ideal))
    (x1 : (⟨S8192x16, .i32⟩ : BufTy).Contents (Elt Ideal)) :
    val_main_v38 (F := Ideal) x0 x1
      = fun _ => Spec.loss (Spec.hasVec x1) (Spec.posVec x0 x1) (Spec.negVec x0) := by
  funext i
  rw [val_main_v38_apply, val_main_v37_apply, val_main_v35_apply, val_main_v34_apply, val_main_cst_13_apply,
    val_main_cst_10_apply, val_main_cst_11_apply, Ideal.hostDivf_def, Ideal.maximumf_def]
  simp only [Ideal.ofBits_def]
  have hs1 : ∑ j : S8192.Idx, val_main_v36 (F := Ideal) x0 x1 j
      = ∑ j : S8192.Idx, Scalar.select (Spec.hasVec x1 j)
          (Spec.rowLoss (Spec.hasVec x1 j) (Spec.posVec x0 x1 j) (Spec.negVec x0 j)) (Ideal.ofBits .f32 0x00000000#32) :=
    Finset.sum_congr rfl fun j _ => rowLoss_at x0 x1 j
  have hs2 : ∑ j : S8192.Idx, val_main_v33 (F := Ideal) x1 j
      = ∑ j : S8192.Idx, FloatOps.uitofp (F := Ideal) .f32 (Spec.hasVec x1 j) :=
    Finset.sum_congr rfl fun j _ => by rw [val_main_v33_apply, hasVec_eq]
  rw [hs1, hs2]
  unfold Spec.loss
  rfl

end Cert.ReferenceIdeal.RefValue

end
-- ==== Proof.lean ====
import proofs.«421964_j23673859736135_3_alg».proof.Defs
import proofs.«421964_j23673859736135_3_alg».proof.Proof.Gen.Kernel
import proofs.«421964_j23673859736135_3_alg».proof.Proof.Gen.KernelIdeal
import proofs.«421964_j23673859736135_3_alg».proof.Proof.Gen.ReferenceIdeal
import proofs.«421964_j23673859736135_3_alg».proof.Proof.Gen.Pre_finite_inputs
import proofs.«421964_j23673859736135_3_alg».proof.Proof.K.Kept
import proofs.«421964_j23673859736135_3_alg».proof.Proof.KI.Kept
import proofs.«421964_j23673859736135_3_alg».proof.Proof.KI.KValue
import proofs.«421964_j23673859736135_3_alg».proof.Proof.KI.KTail
import proofs.«421964_j23673859736135_3_alg».proof.Proof.KI.HasPos
import proofs.«421964_j23673859736135_3_alg».proof.Proof.PreFacts
import proofs.«421964_j23673859736135_3_alg».proof.Proof.RefRead
import proofs.«421964_j23673859736135_3_alg».proof.Proof.RefRunS
import proofs.«421964_j23673859736135_3_alg».proof.Proof.RefValue
import Idealize.ShloMosaic.PureOps.IdealRules
import Idealize.ShloMosaic.Lib.Pipeline.Value
import Idealize.ShloMosaic.Lib.ValueIdx
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Hand.frame m ρ
theorem frame_pi : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunS.run (F := Ideal) m ρ)

theorem preserves : Cert.preserves_Kernel_KernelIdeal :=
  ⟨IdealRules.named_const.statement Cert.KernelIdeal.κ "neg_big" .f32 0xF149F2CA#32 ⊥ rfl,
   IdealRules.named_const.statement Cert.KernelIdeal.κ "inv_temp" .f32 0x41649249#32 ((134217728 / 9395241 : ℝ) : EReal) rfl,
   IdealRules.named_const.statement Cert.KernelIdeal.κ "neg_big" .f32 0xF149F2CA#32 ⊥ rfl⟩

theorem col1_eq (x : FVec Ideal Cert.KernelIdeal.S8192x1 .f32) (g : Fin 8192 → EReal)
    (hx : ∀ r : Fin 8192, x (ValueIdx.ix2 r (0 : Fin 1)) = g r) :
    Cert.KernelIdeal.Hand.col1 (F := Ideal) x = fun i => g (i 0) := by
  funext i
  unfold Cert.KernelIdeal.Hand.col1
  exact (shapeCast_apply x Cert.KernelIdeal.Facts₀.shapeCasts_S8192x1_S8192 i (ValueIdx.ix2 (i 0) (0 : Fin 1))
    (by rw [Shape.rowMajor_val_two, Shape.rowMajor_val_one]; show (i 0).val * 1 + 0 = (i 0).val; omega)).trans (hx (i 0))

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.loss (Cert.Spec.hasVec (m ((c.tc : Thread _ _).loc Cert.KernelIdeal.main_arg1)))
      (Cert.Spec.posVec (m ((c.tc : Thread _ _).loc Cert.KernelIdeal.main_arg0)) (m ((c.tc : Thread _ _).loc Cert.KernelIdeal.main_arg1)))
      (Cert.Spec.negVec (m ((c.tc : Thread _ _).loc Cert.KernelIdeal.main_arg0))), ?_, ?_⟩
  · refine (θ_run Cert.KernelIdeal.defs _ _).mono (fun r h c => ⟨?_, ?_, ?_⟩) (Cert.KernelIdeal.Hand.run_main m ρ)
    · have hfin := Cert.PreFacts.finite_of_pre _ _ (hpre c)
      have h01 := Cert.PreFacts.labels01_of_pre _ _ (hpre c)
      rw [(h c).2 _ Cert.KernelIdeal.Hand.mem_rest_v25, Cert.KernelIdeal.Hand.tail_result, Cert.KernelIdeal.Hand.Wout_arg1,
        Cert.KernelIdeal.Hand.Wout_v2_0, Cert.KernelIdeal.Hand.Wout_v2_1, Cert.KernelIdeal.Hand.arrAt4_eq m c hfin,
        Cert.KernelIdeal.Hand.arrAt5_eq m c hfin, Cert.KernelIdeal.Hand.hasPosK_eq _ h01, Cert.KernelIdeal.Hand.lossK_eq,
        col1_eq _ (fun r => Cert.Spec.posExp (Cert.KernelIdeal.Hand.Etab m c) (Cert.KernelIdeal.Hand.Ltab m c) r) (fun r => rfl),
        col1_eq _ (fun r => Cert.Spec.negExp (Cert.KernelIdeal.Hand.Etab m c) r) (fun r => rfl)]
      rfl
    · exact ((h c).2 _ Cert.KernelIdeal.Hand.mem_rest_arg0).trans ((Cert.KernelIdeal.Hand.tail_arg0 _).trans (Cert.KernelIdeal.Hand.Wout_arg0 m c))
    · exact ((h c).2 _ Cert.KernelIdeal.Hand.mem_rest_arg1).trans ((Cert.KernelIdeal.Hand.tail_arg1 _).trans (Cert.KernelIdeal.Hand.Wout_arg1 m c))
  · refine (θ_run Cert.ReferenceIdeal.defs _ _).mono (fun r h c => ⟨(h c).1.trans ?_, (h c).2⟩)
      (Cert.ReferenceIdeal.RunS.run (F := Ideal) m' ρ')
    rw [Cert.ReferenceIdeal.RefValue.ref_value, (hagree c).1, (hagree c).2]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
